-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x64 : Shape := ⟨3, ![1, 64, 64]⟩
abbrev S1x64x256 : Shape := ⟨3, ![1, 64, 256]⟩
abbrev S4096x4096 : Shape := ⟨2, ![4096, 4096]⟩
abbrev S_ : Shape := ⟨0, ![]⟩

class Facts : Prop where
  bcast_S_S1x64x64 : S_.BroadcastsInDim S1x64x64 (![] : Fin 0 → Fin S1x64x64.rank)
  reducesTo_S1x64x64_S_d0_1_2 : S1x64x64.ReducesTo [0, 1, 2] S_
  h_S_ : 0 < S_.numel
  bcast_S_S1x64x256 : S_.BroadcastsInDim S1x64x256 (![] : Fin 0 → Fin S1x64x256.rank)
  reducesTo_S1x64x256_S_d0_1_2 : S1x64x256.ReducesTo [0, 1, 2] S_
  bcast_S_S4096x4096 : S_.BroadcastsInDim S4096x4096 (![] : Fin 0 → Fin S4096x4096.rank)
  reducesTo_S4096x4096_S_d0_1 : S4096x4096.ReducesTo [0, 1] S_

variable [Facts]

def fn_part2 {F : FTy → Type} [FloatOps F] (main_arg7 : FVec F S4096x4096 .f32) (main_arg8 : FVec F S4096x4096 .f32) (main_arg9 : FVec F S4096x4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  main_v48

def fn_part1 {F : FTy → Type} [FloatOps F] (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x4096 .f32) (main_v13 : IVec S_ 1) (main_v16 : IVec S1x64x256 1) : IVec S_ 1 :=
  let main_c_5 : IVec S_ 1 := constantI S_ 1 1#1
  let main_v17 : IVec S_ 1 := (fun x v => Host.reduce IntOp.andi x v reducesTo_S1x64x256_S_d0_1_2 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S1x64x64 .f32) (main_arg1 : FVec F S1x64x64 .f32) (main_arg2 : FVec F S1x64x64 .f32) (main_arg3 : FVec F S1x64x256 .f32) (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x4096 .f32) : IVec S_ 1 :=
  let main_v0 : FVec F S1x64x64 .f32 := Host.absf main_arg0
  let main_cst : FVec F S_ .f32 := constant S_ .f32 0x7F800000#32
  let main_v1 : FVec F S1x64x64 .f32 := broadcastInDim S1x64x64 ![] bcast_S_S1x64x64 main_cst
  let main_v2 : IVec S1x64x64 1 := cmpf .olt main_v0 main_v1
  let main_c : IVec S_ 1 := constantI S_ 1 1#1
  let main_v3 : IVec S_ 1 := (fun x v => Host.reduce IntOp.andi x v reducesTo_S1x64x64_S_d0_1_2 h_S_) main_v2 main_c
  let main_v4 : FVec F S1x64x64 .f32 := Host.absf main_arg1
  let main_cst_0 : FVec F S_ .f32 := constant S_ .f32 0x7F800000#32
  let main_v5 : FVec F S1x64x64 .f32 := broadcastInDim S1x64x64 ![] bcast_S_S1x64x64 main_cst_0
  let main_v6 : IVec S1x64x64 1 := cmpf .olt main_v4 main_v5
  let main_c_1 : IVec S_ 1 := constantI S_ 1 1#1
  let main_v7 : IVec S_ 1 := (fun x v => Host.reduce IntOp.andi x v reducesTo_S1x64x64_S_d0_1_2 h_S_) main_v6 main_c_1
  let main_v8 : IVec S_ 1 := andi main_v3 main_v7
  let main_v9 : FVec F S1x64x64 .f32 := Host.absf main_arg2
  let main_cst_2 : FVec F S_ .f32 := constant S_ .f32 0x7F800000#32
  let main_v10 : FVec F S1x64x64 .f32 := broadcastInDim S1x64x64 ![] bcast_S_S1x64x64 main_cst_2
  let main_v11 : IVec S1x64x64 1 := cmpf .olt main_v9 main_v10
  let main_c_3 : IVec S_ 1 := constantI S_ 1 1#1
  let main_v12 : IVec S_ 1 := (fun x v => Host.reduce IntOp.andi x v reducesTo_S1x64x64_S_d0_1_2 h_S_) main_v11 main_c_3
  let main_v13 : IVec S_ 1 := andi main_v8 main_v12
  let main_v14 : FVec F S1x64x256 .f32 := Host.absf main_arg3
  let main_cst_4 : FVec F S_ .f32 := constant S_ .f32 0x7F800000#32
  let main_v15 : FVec F S1x64x256 .f32 := broadcastInDim S1x64x256 ![] bcast_S_S1x64x256 main_cst_4
  let main_v16 : IVec S1x64x256 1 := cmpf .olt main_v14 main_v15
  fn_part1 (F := F) main_arg4 main_arg5 main_arg6 main_arg7 main_arg8 main_arg9 main_v13 main_v16
-- ==== Kernel.lean ====
abbrev S1x64x64 : Shape := ⟨3, ![1, 64, 64]⟩
abbrev S1x64x256 : Shape := ⟨3, ![1, 64, 256]⟩
abbrev S4096x4096 : Shape := ⟨2, ![4096, 4096]⟩
abbrev S64x64 : Shape := ⟨2, ![64, 64]⟩
abbrev S64x256 : Shape := ⟨2, ![64, 256]⟩
abbrev S64x1x256 : Shape := ⟨3, ![64, 1, 256]⟩
abbrev S64x64x256 : Shape := ⟨3, ![64, 64, 256]⟩
abbrev S1x4096 : Shape := ⟨2, ![1, 4096]⟩
abbrev S1x1024 : Shape := ⟨2, ![1, 1024]⟩
abbrev S1024x1024 : Shape := ⟨2, ![1024, 1024]⟩

abbrev nBuf : Space → Nat
  | .hbm => 29
  | .vmem => 49
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64x64, .f32⟩
  | .hbm, ⟨3, _⟩ => ⟨S1x64x256, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x256, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S1x4096, .f32⟩
  | .hbm, ⟨18, _⟩ => ⟨S1x4096, .f32⟩
  | .hbm, ⟨19, _⟩ => ⟨S1x4096, .f32⟩
  | .hbm, ⟨20, _⟩ => ⟨S64x64, .f32⟩
  | .hbm, ⟨21, _⟩ => ⟨S1x4096, .f32⟩
  | .hbm, ⟨22, _⟩ => ⟨S1x4096, .f32⟩
  | .hbm, ⟨23, _⟩ => ⟨S1x4096, .f32⟩
  | .hbm, ⟨24, _⟩ => ⟨S64x64, .f32⟩
  | .hbm, ⟨25, _⟩ => ⟨S1x4096, .f32⟩
  | .hbm, ⟨26, _⟩ => ⟨S1x4096, .f32⟩
  | .hbm, ⟨27, _⟩ => ⟨S1x4096, .f32⟩
  | .hbm, ⟨28, _⟩ => ⟨S64x64, .f32⟩
  | .local _ .vmem, ⟨0, _⟩ => ⟨S64x256, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1024x1024, .f32⟩
  | .local _ .vmem, ⟨31, _⟩ => ⟨S1024x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1024x1024, .f32⟩
  | .local _ .vmem, ⟨38, _⟩ => ⟨S1024x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1024x1024, .f32⟩
  | .local _ .vmem, ⟨45, _⟩ => ⟨S1024x1024, .f32⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_scratch0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_scratch0 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_scratch0 : Ref sig .tc := ⟨.vmem, 48, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem1_1 : DmaSem sig := 40
abbrev cc6_sem2_0 : DmaSem sig := 41
abbrev cc6_sem2_1 : DmaSem sig := 42

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S1x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![4, 4], ![false, false]⟩

def k4_cond2 (i : grid4.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S1x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![4, 4], ![false, false]⟩

def k5_cond2 (i : grid5.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S1x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1024x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![4, 4], ![false, false]⟩

def k6_cond2 (i : grid6.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage6_0 : Fin 2 → Memref sig .tc .vmem S1x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S1024x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

class Facts₀ : Prop where
  shapeCasts_S1x64x64_S64x64 : S1x64x64.ShapeCasts S64x64
  shapeCasts_S1x64x256_S64x256 : S1x64x256.ShapeCasts S64x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  shapeCasts_S64x256_S64x1x256 : S64x256.ShapeCasts S64x1x256
  shapeCasts_S64x256_S1x64x256 : S64x256.ShapeCasts S1x64x256
  broadcasts_S64x1x256_S64x64x256 : S64x1x256.Broadcasts S64x64x256
  broadcasts_S1x64x256_S64x64x256 : S1x64x256.Broadcasts S64x64x256
  reduces_S64x64x256_S64x64 : S64x64x256.Reduces [2] S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x64_S1x4096 : S64x64.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1x4096_S64x64 : S1x4096.ShapeCasts S64x64
  dot_S1x1024_S1024x1024_S1x1024_1_0_0_1_n_n_wf : DotDims.WF S1x1024 S1024x1024 S1x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x256.size a
  hwx0_0 : ∀ i : grid0.Coords, EltTy.bits .f32 = 32 ∨ (Rect.block (s := S64x256) S64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x4096.size a
  hwx1_0 : ∀ i : grid1.Coords, EltTy.bits .f32 = 32 ∨ (Rect.block (s := S1x4096) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x4096.size a
  hwx2_0 : ∀ i : grid2.Coords, EltTy.bits .f32 = 32 ∨ (Rect.block (s := S1x4096) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .f32 = 32 ∨ (Rect.block (s := S4096x4096) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x1024.size a ≤ S1x4096.size a
  hwx3_0 : ∀ i : grid3.Coords, EltTy.bits .f32 = 32 ∨ (Rect.block (s := S1x4096) S1x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .f32 = 32 ∨ (Rect.block (s := S4096x4096) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x4096.size a
  hwx3_2 : ∀ i : grid3.Coords, EltTy.bits .f32 = 32 ∨ (Rect.block (s := S1x4096) S1x1024.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x1024.size a ≤ S1x4096.size a
  hwx4_0 : ∀ i : grid4.Coords, EltTy.bits .f32 = 32 ∨ (Rect.block (s := S1x4096) S1x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S4096x4096.size a
  hwx4_1 : ∀ i : grid4.Coords, EltTy.bits .f32 = 32 ∨ (Rect.block (s := S4096x4096) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x4096.size a
  hwx4_2 : ∀ i : grid4.Coords, EltTy.bits .f32 = 32 ∨ (Rect.block (s := S1x4096) S1x1024.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x1024.size a ≤ S1x4096.size a
  hwx5_0 : ∀ i : grid5.Coords, EltTy.bits .f32 = 32 ∨ (Rect.block (s := S1x4096) S1x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S4096x4096.size a
  hwx5_1 : ∀ i : grid5.Coords, EltTy.bits .f32 = 32 ∨ (Rect.block (s := S4096x4096) S1024x1024.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x4096.size a
  hwx5_2 : ∀ i : grid5.Coords, EltTy.bits .f32 = 32 ∨ (Rect.block (s := S1x4096) S1x1024.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x1024.size a ≤ S1x4096.size a
  hwx6_0 : ∀ i : grid6.Coords, EltTy.bits .f32 = 32 ∨ (Rect.block (s := S1x4096) S1x1024.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x1024.size a ≤ S4096x4096.size a
  hwx6_1 : ∀ i : grid6.Coords, EltTy.bits .f32 = 32 ∨ (Rect.block (s := S4096x4096) S1024x1024.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x4096.size a
  hwx6_2 : ∀ i : grid6.Coords, EltTy.bits .f32 = 32 ∨ (Rect.block (s := S1x4096) S1x1024.size (cc6_transform_2 i) (hinb6_2 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_v3) S64x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S64x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S64x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S64x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v6) S1x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v9) S1x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S1x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v10) S1x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S1x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v13) S1x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S1024x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v14) S1x1024.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v14) S1x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S1024x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v15) S1x1024.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

class Facts : Prop extends Facts₀ where

variable [Facts]
-- ==== ReferenceIdeal.lean ====
abbrev S1x64x64 : Shape := ⟨3, ![1, 64, 64]⟩
abbrev S1x64x256 : Shape := ⟨3, ![1, 64, 256]⟩
abbrev S4096x4096 : Shape := ⟨2, ![4096, 4096]⟩
abbrev S64x64 : Shape := ⟨2, ![64, 64]⟩
abbrev S64x256 : Shape := ⟨2, ![64, 256]⟩
abbrev S64x1x256 : Shape := ⟨3, ![64, 1, 256]⟩
abbrev S64x64x256 : Shape := ⟨3, ![64, 64, 256]⟩
abbrev S_ : Shape := ⟨0, ![]⟩
abbrev S1x4096 : Shape := ⟨2, ![1, 4096]⟩

abbrev nBuf : Space → Nat
  | .hbm => 92
  | .vmem => 0
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64x64, .f32⟩
  | .hbm, ⟨3, _⟩ => ⟨S1x64x256, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x256, .f32⟩
  | .hbm, ⟨14, _⟩ => ⟨S64x1x256, .f32⟩
  | .hbm, ⟨15, _⟩ => ⟨S1x64x256, .f32⟩
  | .hbm, ⟨16, _⟩ => ⟨S64x64x256, .f32⟩
  | .hbm, ⟨17, _⟩ => ⟨S64x64x256, .f32⟩
  | .hbm, ⟨18, _⟩ => ⟨S64x64x256, .f32⟩
  | .hbm, ⟨19, _⟩ => ⟨S64x64x256, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S64x64, .i1⟩
  | .hbm, ⟨26, _⟩ => ⟨S_, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S1x4096, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S_, .f32⟩
  | .hbm, ⟨37, _⟩ => ⟨S1x4096, .f32⟩
  | .hbm, ⟨38, _⟩ => ⟨S1x4096, .f32⟩
  | .hbm, ⟨39, _⟩ => ⟨S64x64, .f32⟩
  | .hbm, ⟨40, _⟩ => ⟨S64x1x256, .f32⟩
  | .hbm, ⟨41, _⟩ => ⟨S1x64x256, .f32⟩
  | .hbm, ⟨42, _⟩ => ⟨S64x64x256, .f32⟩
  | .hbm, ⟨43, _⟩ => ⟨S64x64x256, .f32⟩
  | .hbm, ⟨44, _⟩ => ⟨S64x64x256, .f32⟩
  | .hbm, ⟨45, _⟩ => ⟨S64x64x256, .f32⟩
  | .hbm, ⟨46, _⟩ => ⟨S_, .f32⟩
  | .hbm, ⟨47, _⟩ => ⟨S64x64, .f32⟩
  | .hbm, ⟨48, _⟩ => ⟨S64x64, .f32⟩
  | .hbm, ⟨49, _⟩ => ⟨S_, .f32⟩
  | .hbm, ⟨50, _⟩ => ⟨S64x64, .f32⟩
  | .hbm, ⟨51, _⟩ => ⟨S64x64, .i1⟩
  | .hbm, ⟨52, _⟩ => ⟨S_, .f32⟩
  | .hbm, ⟨53, _⟩ => ⟨S_, .f32⟩
  | .hbm, ⟨54, _⟩ => ⟨S64x64, .f32⟩
  | .hbm, ⟨55, _⟩ => ⟨S64x64, .f32⟩
  | .hbm, ⟨56, _⟩ => ⟨S1x4096, .f32⟩
  | .hbm, ⟨57, _⟩ => ⟨S1x4096, .f32⟩
  | .hbm, ⟨58, _⟩ => ⟨S_, .f32⟩
  | .hbm, ⟨59, _⟩ => ⟨S1x4096, .f32⟩
  | .hbm, ⟨60, _⟩ => ⟨S1x4096, .f32⟩
  | .hbm, ⟨61, _⟩ => ⟨S1x4096, .f32⟩
  | .hbm, ⟨62, _⟩ => ⟨S_, .f32⟩
  | .hbm, ⟨63, _⟩ => ⟨S1x4096, .f32⟩
  | .hbm, ⟨64, _⟩ => ⟨S1x4096, .f32⟩
  | .hbm, ⟨65, _⟩ => ⟨S64x64, .f32⟩
  | .hbm, ⟨66, _⟩ => ⟨S64x1x256, .f32⟩
  | .hbm, ⟨67, _⟩ => ⟨S1x64x256, .f32⟩
  | .hbm, ⟨68, _⟩ => ⟨S64x64x256, .f32⟩
  | .hbm, ⟨69, _⟩ => ⟨S64x64x256, .f32⟩
  | .hbm, ⟨70, _⟩ => ⟨S64x64x256, .f32⟩
  | .hbm, ⟨71, _⟩ => ⟨S64x64x256, .f32⟩
  | .hbm, ⟨72, _⟩ => ⟨S_, .f32⟩
  | .hbm, ⟨73, _⟩ => ⟨S64x64, .f32⟩
  | .hbm, ⟨74, _⟩ => ⟨S64x64, .f32⟩
  | .hbm, ⟨75, _⟩ => ⟨S_, .f32⟩
  | .hbm, ⟨76, _⟩ => ⟨S64x64, .f32⟩
  | .hbm, ⟨77, _⟩ => ⟨S64x64, .i1⟩
  | .hbm, ⟨78, _⟩ => ⟨S_, .f32⟩
  | .hbm, ⟨79, _⟩ => ⟨S_, .f32⟩
  | .hbm, ⟨80, _⟩ => ⟨S64x64, .f32⟩
  | .hbm, ⟨81, _⟩ => ⟨S64x64, .f32⟩
  | .hbm, ⟨82, _⟩ => ⟨S1x4096, .f32⟩
  | .hbm, ⟨83, _⟩ => ⟨S1x4096, .f32⟩
  | .hbm, ⟨84, _⟩ => ⟨S_, .f32⟩
  | .hbm, ⟨85, _⟩ => ⟨S1x4096, .f32⟩
  | .hbm, ⟨86, _⟩ => ⟨S1x4096, .f32⟩
  | .hbm, ⟨87, _⟩ => ⟨S1x4096, .f32⟩
  | .hbm, ⟨88, _⟩ => ⟨S_, .f32⟩
  | .hbm, ⟨89, _⟩ => ⟨S1x4096, .f32⟩
  | .hbm, ⟨90, _⟩ => ⟨S1x4096, .f32⟩
  | .hbm, ⟨91, _⟩ => ⟨S64x64, .f32⟩
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_cst : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_call2_cst : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_call3_v0 : Ref sig .tc := ⟨.hbm, 53, rfl⟩
abbrev main_call3_v1 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call4_cst : Ref sig .tc := ⟨.hbm, 58, rfl⟩
abbrev main_call4_v0 : Ref sig .tc := ⟨.hbm, 59, rfl⟩
abbrev main_v34 : Ref sig .tc := ⟨.hbm, 60, rfl⟩
abbrev main_v35 : Ref sig .tc := ⟨.hbm, 61, rfl⟩
abbrev main_call5_cst : Ref sig .tc := ⟨.hbm, 62, rfl⟩
abbrev main_call5_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_5 : Ref sig .tc := ⟨.hbm, 72, rfl⟩
abbrev main_v44 : Ref sig .tc := ⟨.hbm, 73, rfl⟩
abbrev main_v45 : Ref sig .tc := ⟨.hbm, 74, rfl⟩
abbrev main_cst_6 : Ref sig .tc := ⟨.hbm, 75, rfl⟩
abbrev main_v46 : Ref sig .tc := ⟨.hbm, 76, rfl⟩
abbrev main_v47 : Ref sig .tc := ⟨.hbm, 77, rfl⟩
abbrev main_cst_7 : Ref sig .tc := ⟨.hbm, 78, rfl⟩
abbrev main_call6_v0 : Ref sig .tc := ⟨.hbm, 79, rfl⟩
abbrev main_call6_v1 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call7_cst : Ref sig .tc := ⟨.hbm, 84, rfl⟩
abbrev main_call7_v0 : Ref sig .tc := ⟨.hbm, 85, rfl⟩
abbrev main_v51 : Ref sig .tc := ⟨.hbm, 86, rfl⟩
abbrev main_v52 : Ref sig .tc := ⟨.hbm, 87, rfl⟩
abbrev main_call8_cst : Ref sig .tc := ⟨.hbm, 88, rfl⟩
abbrev main_call8_v0 : Ref sig .tc := ⟨.hbm, 89, rfl⟩
abbrev main_v53 : Ref sig .tc := ⟨.hbm, 90, rfl⟩
abbrev main_v54 : Ref sig .tc := ⟨.hbm, 91, rfl⟩

abbrev nD : Nat := 1
abbrev τ : Topo := Topo.v7x

variable {F : FTy → Type} [FloatOps F]

class Facts₀ : Prop where
  shapeCasts_S1x64x64_S64x64 : S1x64x64.ShapeCasts S64x64
  shapeCasts_S1x64x256_S64x256 : S1x64x256.ShapeCasts S64x256
  bcast_S64x256_S64x1x256_0_2 : S64x256.BroadcastsInDim S64x1x256 (![0, 2] : Fin 2 → Fin S64x1x256.rank)
  bcast_S64x256_S1x64x256_1_2 : S64x256.BroadcastsInDim S1x64x256 (![1, 2] : Fin 2 → Fin S1x64x256.rank)
  bcast_S64x1x256_S64x64x256_0_1_2 : S64x1x256.BroadcastsInDim S64x64x256 (![0, 1, 2] : Fin 3 → Fin S64x64x256.rank)
  bcast_S1x64x256_S64x64x256_0_1_2 : S1x64x256.BroadcastsInDim S64x64x256 (![0, 1, 2] : Fin 3 → Fin S64x64x256.rank)
  reducesTo_S64x64x256_S64x64_d2 : S64x64x256.ReducesTo [2] S64x64
  h_S_ : 0 < S_.numel
  bcast_S_S64x64 : S_.BroadcastsInDim S64x64 (![] : Fin 0 → Fin S64x64.rank)
  shapeCasts_S64x64_S1x4096 : S64x64.ShapeCasts S1x4096
  bcast_S_S1x4096 : S_.BroadcastsInDim S1x4096 (![] : Fin 0 → Fin S1x4096.rank)
  shapeCasts_S1x4096_S64x64 : S1x4096.ShapeCasts S64x64
  dot_S1x4096_S4096x4096_S1x4096_1_0_0_1_n_n_wf : DotDims.WF S1x4096 S4096x4096 S1x4096 [1] [0] [0] [1] [] []

variable [Facts₀]

def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf

class Facts : Prop extends Facts₀ where

variable [Facts]
-- ==== Proof.K.Reg0.lean ====
import proofs.«151769_j20177756357157_1_alg».proof.Proof.Gen.Kernel.Launch
import proofs.«151769_j20177756357157_1_alg».proof.Proof.Gen.Kernel.Skeleton
import proofs.«151769_j20177756357157_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S64x256 := Rect.unit (s := S64x256) ![0, 0] S64x256.size inb_S64x256_S64x256_0_0
abbrev rB0 : Rect S64x64 := Rect.unit (s := S64x64) ![0, 0] S64x64.size inb_S64x64_S64x64_0_0

def out0_4 (x0 : Vec F S64x256 .f32) (x1 : Vec F S64x64 .f32) : Vec F S64x64 .f32 :=
  View.canon [⟨rB0, k0_pay2 (View.ld x0 rA0) (View.ld x1 rB0)⟩]

def out0_5 (x0 : Vec F S64x256 .f32) (x2 : Vec F S64x64 .f32) : Vec F S64x64 .f32 :=
  View.canon [⟨rB0, k0_pay3 (View.ld x0 rA0) (View.ld x2 rB0)⟩]

def out0_6 (x0 : Vec F S64x256 .f32) (x3 : Vec F S64x64 .f32) : Vec F S64x64 .f32 :=
  View.canon [⟨rB0, k0_pay4 (View.ld x0 rA0) (View.ld x3 rB0)⟩]

theorem cover0_B (p0 : Vec F S64x64 .f32) (y : S64x64.Idx) :
    ∃ pc ∈ ([⟨rB0, p0⟩] : List (View.Piece (Elt F) S64x64 .f32)), y ∈ pc.1.set :=
  View.cover_of_tiled [⟨rB0, p0⟩] S64x64.size (by rfl) y

set_option maxHeartbeats 4000000 in

theorem sound_kernel0 (c : Dev nD) (E : Set ℕ) (i : grid0.Coords)
    (arg1 : Memref sig .tc .vmem S64x256 .f32) (harg1 : arg1.IsWhole) (arg2 : Memref sig .tc .vmem S64x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S64x64 .f32) (harg7 : arg7.IsWhole)
    (x0 : Vec F S64x256 .f32) (x1 x2 x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__dist_kernel i arg1 harg1 arg2 harg2 arg3 harg3 arg4 harg4 arg5 harg5 arg6 harg6 arg7 harg7) K := by
  simp only [cc0__dist_kernel_eq_skeleton]; unfold cc0__dist_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_B _)
  isplitl [H5]
  · iexists _; isplitr
    swap; · iexact H5
    ipureintro
    exact View.read_writes_eq_canon _ _ _ (cover0_B _)
  iexists _; isplitr
  swap; · iexact H6
  ipureintro
  exact View.read_writes_eq_canon _ _ _ (cover0_B _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  show (Pipeline.ΦA spec0 c : sProp 𝕄) ⊢ Pipeline.ΦA spec0 c
  exact .rfl

theorem hout0 (c : Dev nD) : (dat0 V c).Φ (Fin.last cfg0.N) ⊢ (Pipeline.ΦA spec0 c : sProp 𝕄) := by
  show (Pipeline.ΦA spec0 c : sProp 𝕄) ⊢ Pipeline.ΦA spec0 c
  exact .rfl

theorem recorded_eq0 (c : Dev nD) (t : Fin (cfg0.N + 1)) : (dat0 V c).recorded t = Set.univ := rfl

end Cert.Kernel.Hand

end
-- ==== Proof.K.MvRunA.lean ====
import proofs.«151769_j20177756357157_1_alg».proof.Proof.Gen.Kernel.Launch
import proofs.«151769_j20177756357157_1_alg».proof.Proof.Gen.Kernel.Skeleton
import proofs.«151769_j20177756357157_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The matrix-vector kernel: all six calls run this one function. -/
abbrev mvKernel := cc1__matvec_relu_kernel (F := F)

/-- The first row tile of a column tile (kk = 0): the accumulator is reset. -/
abbrev mvFirst (i : grid1.Coords) : Prop := (Scalar.cmpi .ne (Scalar.extui (Scalar.cmpi .eq (BitVec.ofNat 32 (i 1).val) 0#32)) 0#32) = 1#1
/-- The last row tile (kk = 3): the clamped accumulator is stored to the output tile. -/
abbrev mvLast (i : grid1.Coords) : Prop := k1_cond2 i = 1#1

set_option maxHeartbeats 4000000 in
/-- A first row tile: the accumulator is reset and the first partial product added; the output tile is untouched. -/
noncomputable def mvRunA (c : Dev nD) (i : grid1.Coords) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (hc0 : mvFirst i) (hc1 : ¬mvLast i)
    (x0 : Vec F S1x1024 .f32) (x1 : Vec F S1024x1024 .f32) :
    Σ' (L2 : List (View.Piece (Elt F) S1x1024 .f32)), { LS0 : List (View.Piece (Elt F) S1x1024 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matvec_relu_kernel i arg2 harg2 arg3 harg3 arg4 harg4 arg5 harg5) K } := by
  refine ⟨[], ?_, fun xi2 E K => ?run⟩
  case run =>
    simp only [cc1__matvec_relu_kernel_eq_skeleton]; unfold cc1__matvec_relu_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.MvRunB.lean ====
import proofs.«151769_j20177756357157_1_alg».proof.Proof.K.MvRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- A middle row tile: one more partial product is added to the accumulator `xs0`. -/
noncomputable def mvRunB (c : Dev nD) (i : grid1.Coords) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (hc0 : ¬mvFirst i) (hc1 : ¬mvLast i)
    (x0 : Vec F S1x1024 .f32) (x1 : Vec F S1024x1024 .f32) (xs0 : Vec F S1x1024 .f32) :
    Σ' (L2 : List (View.Piece (Elt F) S1x1024 .f32)), { LS0 : List (View.Piece (Elt F) S1x1024 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matvec_relu_kernel i arg2 harg2 arg3 harg3 arg4 harg4 arg5 harg5) K } := by
  refine ⟨[], ?_, fun xi2 E K => ?run⟩
  case run =>
    simp only [cc1__matvec_relu_kernel_eq_skeleton]; unfold cc1__matvec_relu_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.K.MvRunC.lean ====
import proofs.«151769_j20177756357157_1_alg».proof.Proof.K.MvRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- A last row tile: the last partial product is added, and the accumulator clamped below at zero goes to the output tile. -/
noncomputable def mvRunC (c : Dev nD) (i : grid1.Coords) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (hc0 : ¬mvFirst i) (hc1 : mvLast i)
    (x0 : Vec F S1x1024 .f32) (x1 : Vec F S1024x1024 .f32) (xs0 : Vec F S1x1024 .f32) :
    Σ' (L2 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__matvec_relu_kernel i arg2 harg2 arg3 harg3 arg4 harg4 arg5 harg5) K } := by
  refine ⟨?_, ?_, fun E K => ?run⟩
  case run =>
    simp only [cc1__matvec_relu_kernel_eq_skeleton]; unfold cc1__matvec_relu_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.K.MvCall.lean ====
import proofs.«151769_j20177756357157_1_alg».proof.Proof.K.MvRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A whole buffer of a tile's shape, through which the contents a list of stores leaves are stated. -/
abbrev mvTile : View sig .tc .vmem S1x1024 .f32 := (Memref.whole cc1_scratch0 : Memref sig .tc .vmem S1x1024 .f32).view

/-- What the stores `L` leave in a tile-shaped buffer they cover. -/
def mvLeft (L : List (View.Piece (Elt F) S1x1024 .f32)) : Vec F S1x1024 .f32 :=
  mvTile.read (Elt F) (mvTile.writes (Elt F) mvTile.junk L)

variable (c : Dev nD) (i : grid1.Coords) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole)

section first
variable (hc0 : mvFirst i) (hc1 : ¬mvLast i) (x0 : Vec F S1x1024 .f32) (x1 : Vec F S1024x1024 .f32)

/-- The output tile (nothing stored: nothing reads it) and the accumulator after a first row tile. -/
def mvStepA : Vec F S1x1024 .f32 × Vec F S1x1024 .f32 :=
  (mvLeft (mvRunA c i arg2 harg2 arg3 harg3 arg4 harg4 arg5 harg5 hc0 hc1 x0 x1).1, mvLeft (mvRunA c i arg2 harg2 arg3 harg3 arg4 harg4 arg5 harg5 hc0 hc1 x0 x1).2.1)
theorem mvAccA_cover (y : S1x1024.Idx) : ∃ pc ∈ (mvRunA c i arg2 harg2 arg3 harg3 arg4 harg4 arg5 harg5 hc0 hc1 x0 x1).2.1, y ∈ pc.1.set :=
  View.cover_of_tiledL _ S1x1024.size (by sl_kernel_rfl) y
end first

section middle
variable (hc0 : ¬mvFirst i) (hc1 : ¬mvLast i) (x0 : Vec F S1x1024 .f32) (x1 : Vec F S1024x1024 .f32) (xs0 : Vec F S1x1024 .f32)

/-- The output tile (untouched) and the accumulator after a middle row tile. -/
def mvStepB : Vec F S1x1024 .f32 × Vec F S1x1024 .f32 :=
  (mvLeft (mvRunB c i arg2 harg2 arg3 harg3 arg4 harg4 arg5 harg5 hc0 hc1 x0 x1 xs0).1, mvLeft (mvRunB c i arg2 harg2 arg3 harg3 arg4 harg4 arg5 harg5 hc0 hc1 x0 x1 xs0).2.1)
theorem mvAccB_cover (y : S1x1024.Idx) : ∃ pc ∈ (mvRunB c i arg2 harg2 arg3 harg3 arg4 harg4 arg5 harg5 hc0 hc1 x0 x1 xs0).2.1, y ∈ pc.1.set :=
  View.cover_of_tiledL _ S1x1024.size (by sl_kernel_rfl) y
end middle

section last
variable (hc0 : ¬mvFirst i) (hc1 : mvLast i) (x0 : Vec F S1x1024 .f32) (x1 : Vec F S1024x1024 .f32) (xs0 : Vec F S1x1024 .f32)

/-- The output tile and the accumulator after a last row tile. -/
def mvStepC : Vec F S1x1024 .f32 × Vec F S1x1024 .f32 :=
  (mvLeft (mvRunC c i arg2 harg2 arg3 harg3 arg4 harg4 arg5 harg5 hc0 hc1 x0 x1 xs0).1, mvLeft (mvRunC c i arg2 harg2 arg3 harg3 arg4 harg4 arg5 harg5 hc0 hc1 x0 x1 xs0).2.1)
theorem mvOutC_cover (y : S1x1024.Idx) : ∃ pc ∈ (mvRunC c i arg2 harg2 arg3 harg3 arg4 harg4 arg5 harg5 hc0 hc1 x0 x1 xs0).1, y ∈ pc.1.set :=
  View.cover_of_tiledL _ S1x1024.size (by sl_kernel_rfl) y
theorem mvAccC_cover (y : S1x1024.Idx) : ∃ pc ∈ (mvRunC c i arg2 harg2 arg3 harg3 arg4 harg4 arg5 harg5 hc0 hc1 x0 x1 xs0).2.1, y ∈ pc.1.set :=
  View.cover_of_tiledL _ S1x1024.size (by sl_kernel_rfl) y
end last

end Cert.Kernel.Hand

end
-- ==== Proof.K.MvPoint.lean ====
import proofs.«151769_j20177756357157_1_alg».proof.Proof.K.MvCall

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What a region hands the kernel at each of its sixteen positions n = 4 · (column tile) + (row tile): the grid
    coordinates, with the two facts that place the position among the row tiles, the four operands, and the two input tiles. -/
structure MvOps (F : FTy → Type) [FloatOps F] where
  i : (n : ℕ) → n < 16 → grid1.Coords
  first : ∀ n hn, mvFirst (i n hn) ↔ n % 4 = 0
  last : ∀ n hn, mvLast (i n hn) ↔ n % 4 = 3
  a2 : (n : ℕ) → n < 16 → Memref sig .tc .vmem S1x1024 .f32
  h2 : ∀ n hn, (a2 n hn).IsWhole
  a3 : (n : ℕ) → n < 16 → Memref sig .tc .vmem S1024x1024 .f32
  h3 : ∀ n hn, (a3 n hn).IsWhole
  a4 : (n : ℕ) → n < 16 → Memref sig .tc .vmem S1x1024 .f32
  h4 : ∀ n hn, (a4 n hn).IsWhole
  acc : Memref sig .tc .vmem S1x1024 .f32
  hacc : acc.IsWhole
  x0 : (n : ℕ) → n < 16 → Vec F S1x1024 .f32
  x1 : (n : ℕ) → n < 16 → Vec F S1024x1024 .f32

variable (o : MvOps F) (c : Dev nD)

def mvAtA (n : ℕ) (hn : n < 16) (h0 : n % 4 = 0) : Vec F S1x1024 .f32 × Vec F S1x1024 .f32 :=
  mvStepA c (o.i n hn) (o.a2 n hn) (o.h2 n hn) (o.a3 n hn) (o.h3 n hn) (o.a4 n hn) (o.h4 n hn) o.acc o.hacc ((o.first n hn).mpr h0) (fun h => by have := (o.last n hn).mp h; omega) (o.x0 n hn) (o.x1 n hn)
def mvAtB (n : ℕ) (hn : n < 16) (h0 : ¬n % 4 = 0) (h1 : ¬n % 4 = 3) (xs0 : Vec F S1x1024 .f32) : Vec F S1x1024 .f32 × Vec F S1x1024 .f32 :=
  mvStepB c (o.i n hn) (o.a2 n hn) (o.h2 n hn) (o.a3 n hn) (o.h3 n hn) (o.a4 n hn) (o.h4 n hn) o.acc o.hacc (fun h => h0 ((o.first n hn).mp h)) (fun h => h1 ((o.last n hn).mp h)) (o.x0 n hn) (o.x1 n hn) xs0
def mvAtC (n : ℕ) (hn : n < 16) (h0 : ¬n % 4 = 0) (h1 : n % 4 = 3) (xs0 : Vec F S1x1024 .f32) : Vec F S1x1024 .f32 × Vec F S1x1024 .f32 :=
  mvStepC c (o.i n hn) (o.a2 n hn) (o.h2 n hn) (o.a3 n hn) (o.h3 n hn) (o.a4 n hn) (o.h4 n hn) o.acc o.hacc (fun h => h0 ((o.first n hn).mp h)) ((o.last n hn).mpr h1) (o.x0 n hn) (o.x1 n hn) xs0

/-- The output tile and the accumulator after position n: the case of n % 4 on the position's tiles, the accumulator taken
    from position n - 1 except at a reset. -/
def mvOutsAt : (n : ℕ) → n < 16 → Vec F S1x1024 .f32 × Vec F S1x1024 .f32
  | 0, hn => mvAtA o c 0 hn (Nat.zero_mod _)
  | n + 1, hn =>
    if h0 : (n + 1) % 4 = 0 then mvAtA o c (n + 1) hn h0
    else if h1 : (n + 1) % 4 = 3 then mvAtC o c (n + 1) hn h0 h1 (mvOutsAt n (Nat.lt_of_succ_lt hn)).2
    else mvAtB o c (n + 1) hn h0 h1 (mvOutsAt n (Nat.lt_of_succ_lt hn)).2

theorem mvOutsAt_A (n : ℕ) (hn : n < 16) (h0 : n % 4 = 0) : mvOutsAt o c n hn = mvAtA o c n hn h0 := by
  cases n with
  | zero => rfl
  | succ n => exact dif_pos h0

theorem mvOutsAt_B (n : ℕ) (hn : n < 16) (h0 : ¬n % 4 = 0) (h1 : ¬n % 4 = 3) :
    mvOutsAt o c n hn = mvAtB o c n hn h0 h1 (mvOutsAt o c (n - 1) (Nat.lt_of_le_of_lt (Nat.sub_le _ _) hn)).2 := by
  cases n with
  | zero => exact absurd (Nat.zero_mod _) h0
  | succ n => exact (dif_neg h0).trans (dif_neg h1)

theorem mvOutsAt_C (n : ℕ) (hn : n < 16) (h0 : ¬n % 4 = 0) (h1 : n % 4 = 3) :
    mvOutsAt o c n hn = mvAtC o c n hn h0 h1 (mvOutsAt o c (n - 1) (Nat.lt_of_le_of_lt (Nat.sub_le _ _) hn)).2 := by
  cases n with
  | zero => exact absurd (Nat.zero_mod _) h0
  | succ n => exact (dif_neg h0).trans (dif_pos h1)

/-- The invariant before position n: the accumulator holds anything at the start and afterwards what the position before
    left; `Rest` stands for everything else the region keeps. -/
def mvPhi (Rest : sProp 𝕄) : (n : ℕ) → n ≤ 16 → sProp 𝕄
  | 0, _ => iprop(iprop(iprop(∃ d, owns (c : Thread nD τ) o.acc fullShare d) ∗ Rest) ∗ (∃ r, prngReg c r))
  | n + 1, hn => iprop(iprop(owns (c : Thread nD τ) o.acc fullShare (mvOutsAt o c n hn).2 ∗ Rest) ∗ (∃ r, prngReg c r))

theorem mvPhi_pos (Rest : sProp 𝕄) (n : ℕ) (h : n ≤ 16) (hz : n ≠ 0) :
    mvPhi o c Rest n h = iprop(iprop(owns (c : Thread nD τ) o.acc fullShare (mvOutsAt o c (n - 1) (by omega)).2 ∗ Rest) ∗ (∃ r, prngReg c r)) := by
  cases n with
  | zero => exact absurd rfl hz
  | succ n => rfl

/-- At any position the invariant gives back the one of the start: the accumulator's contents are forgotten. -/
theorem mvPhi_start (Rest : sProp 𝕄) (n : ℕ) (h : n ≤ 16) : mvPhi o c Rest n h ⊢ mvPhi o c Rest 0 (Nat.zero_le _) := by
  cases n with
  | zero => exact Idealize.SL.BI.Entails.refl _
  | succ n =>
    show iprop(iprop(owns (c : Thread nD τ) o.acc fullShare (mvOutsAt o c n h).2 ∗ Rest) ∗ (∃ r, prngReg c r)) ⊢ iprop(iprop(iprop(∃ d, owns (c : Thread nD τ) o.acc fullShare d) ∗ Rest) ∗ (∃ r, prngReg c r))
    iintro ⟨⟨HS0, Hrest⟩, Hg⟩
    isplitl [HS0 Hrest]
    · isplitl [HS0]
      · iexists _; iexact HS0
      iexact Hrest
    iexact Hg

set_option maxHeartbeats 8000000 in
/-- A position that is not a last row tile: the kernel moves the invariant on and hands the two input tiles back; the
    output tile's buffer comes back at anything. -/
theorem mvPoint (Rest : sProp 𝕄) (n : ℕ) (hn : n < 16) (h1 : ¬n % 4 = 3) (Own Q : sProp 𝕄) (d2 : Vec F S1x1024 .f32)
    (hQ : owns (c : Thread nD τ) (o.a4 n hn) fullShare d2 ⊢ Q) :
    iprop(mvPhi o c Rest n (Nat.le_of_lt hn) ∗ Own ∗ owns (c : Thread nD τ) (o.a2 n hn) fullShare (o.x0 n hn) ∗ owns (c : Thread nD τ) (o.a3 n hn) fullShare (o.x1 n hn) ∗ owns (c : Thread nD τ) (o.a4 n hn) fullShare d2)
      ⊢ wp frame (wpE (defs₀ (F := F)) Variants.none c none) Set.univ (mvKernel (o.i n hn) (o.a2 n hn) (o.h2 n hn) (o.a3 n hn) (o.h3 n hn) (o.a4 n hn) (o.h4 n hn) o.acc o.hacc)
          (fun _ => iprop(mvPhi o c Rest (n + 1) hn ∗ Own ∗ owns (c : Thread nD τ) (o.a2 n hn) fullShare (o.x0 n hn) ∗ owns (c : Thread nD τ) (o.a3 n hn) fullShare (o.x1 n hn) ∗ Q)) := by
  rw [show mvPhi o c Rest (n + 1) hn = iprop(iprop(owns (c : Thread nD τ) o.acc fullShare (mvOutsAt o c n hn).2 ∗ Rest) ∗ (∃ r, prngReg c r)) from rfl]
  by_cases h0 : n % 4 = 0
  · rw [mvOutsAt_A o c n hn h0]
    unfold mvAtA mvStepA mvLeft; (try dsimp only)
    by_cases hz : n = 0
    · subst hz
      rw [show mvPhi o c Rest 0 (Nat.le_of_lt hn) = iprop(iprop(iprop(∃ d, owns (c : Thread nD τ) o.acc fullShare d) ∗ Rest) ∗ (∃ r, prngReg c r)) from rfl]
      iintro ⟨⟨⟨HS0, Hrest⟩, Hg⟩, Ho, H0, H1, H2⟩
      iapply ((mvRunA c _ _ _ _ _ _ _ _ _ ((o.first 0 hn).mpr h0) (fun h => by have := (o.last 0 hn).mp h; omega) (o.x0 0 hn) (o.x1 0 hn)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (mvAccA_cover c _ _ _ _ _ _ _ _ _ _ _ _ _)
          iexact Hrest
        iexact Hg
      isplitl [Ho]; · iexact Ho
      isplitl [H0]; · iexact H0
      isplitl [H1]; · iexact H1
      iapply hQ; iexact H2
    · rw [mvPhi_pos o c Rest n _ hz]
      iintro ⟨⟨⟨HS0, Hrest⟩, Hg⟩, Ho, H0, H1, H2⟩
      iapply ((mvRunA c _ _ _ _ _ _ _ _ _ ((o.first n hn).mpr h0) (fun h => by have := (o.last n hn).mp h; omega) (o.x0 n hn) (o.x1 n hn)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (mvAccA_cover c _ _ _ _ _ _ _ _ _ _ _ _ _)
          iexact Hrest
        iexact Hg
      isplitl [Ho]; · iexact Ho
      isplitl [H0]; · iexact H0
      isplitl [H1]; · iexact H1
      iapply hQ; iexact H2
  · rw [mvOutsAt_B o c n hn h0 h1]
    unfold mvAtB mvStepB mvLeft; (try dsimp only)
    have hz : n ≠ 0 := by omega
    rw [mvPhi_pos o c Rest n _ hz]
    iintro ⟨⟨⟨HS0, Hrest⟩, Hg⟩, Ho, H0, H1, H2⟩
    iapply ((mvRunB c _ _ _ _ _ _ _ _ _ (fun h => h0 ((o.first n hn).mp h)) (fun h => h1 ((o.last n hn).mp h)) (o.x0 n hn) (o.x1 n hn) _).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (mvAccB_cover c _ _ _ _ _ _ _ _ _ _ _ _ _ _)
        iexact Hrest
      iexact Hg
    isplitl [Ho]; · iexact Ho
    isplitl [H0]; · iexact H0
    isplitl [H1]; · iexact H1
    iapply hQ; iexact H2

set_option maxHeartbeats 8000000 in
/-- A last row tile: the same, and the output tile's buffer comes back at the clamped accumulator. -/
theorem mvPointLast (Rest : sProp 𝕄) (n : ℕ) (hn : n < 16) (h1 : n % 4 = 3) (Own : sProp 𝕄) :
    iprop(mvPhi o c Rest n (Nat.le_of_lt hn) ∗ Own ∗ owns (c : Thread nD τ) (o.a2 n hn) fullShare (o.x0 n hn) ∗ owns (c : Thread nD τ) (o.a3 n hn) fullShare (o.x1 n hn) ∗ ∃ d, owns (c : Thread nD τ) (o.a4 n hn) fullShare d)
      ⊢ wp frame (wpE (defs₀ (F := F)) Variants.none c none) Set.univ (mvKernel (o.i n hn) (o.a2 n hn) (o.h2 n hn) (o.a3 n hn) (o.h3 n hn) (o.a4 n hn) (o.h4 n hn) o.acc o.hacc)
          (fun _ => iprop(mvPhi o c Rest (n + 1) hn ∗ Own ∗ owns (c : Thread nD τ) (o.a2 n hn) fullShare (o.x0 n hn) ∗ owns (c : Thread nD τ) (o.a3 n hn) fullShare (o.x1 n hn) ∗ owns (c : Thread nD τ) (o.a4 n hn) fullShare (mvOutsAt o c n hn).1)) := by
  rw [show mvPhi o c Rest (n + 1) hn = iprop(iprop(owns (c : Thread nD τ) o.acc fullShare (mvOutsAt o c n hn).2 ∗ Rest) ∗ (∃ r, prngReg c r)) from rfl]
  have h0 : ¬n % 4 = 0 := by omega
  have hz : n ≠ 0 := by omega
  rw [mvOutsAt_C o c n hn h0 h1]
  unfold mvAtC mvStepC mvLeft; (try dsimp only)
  rw [mvPhi_pos o c Rest n _ hz]
  iintro ⟨⟨⟨HS0, Hrest⟩, Hg⟩, Ho, H0, H1, H2⟩
  iapply ((mvRunC c _ _ _ _ _ _ _ _ _ (fun h => h0 ((o.first n hn).mp h)) ((o.last n hn).mpr h1) (o.x0 n hn) (o.x1 n hn) _).2.2 Set.univ _)
  isplitl [H0]; · iexact H0
  isplitl [H1]; · iexact H1
  isplitl [H2]; · iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (mvAccC_cover c _ _ _ _ _ _ _ _ _ _ _ _ _ _)
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (mvOutC_cover c _ _ _ _ _ _ _ _ _ _ _ _ _ _)

end Cert.Kernel.Hand

end
-- ==== Proof.K.Reg1Runs.lean ====
import proofs.«151769_j20177756357157_1_alg».proof.Proof.K.MvPoint

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hcond1_0 : ∀ t : Fin cfg1.N, mvFirst (grid1.coords t) ↔ t.val % 4 = 0 :=
  (by decide +kernel : ∀ t : Fin grid1.N, mvFirst (grid1.coords t) ↔ t.val % 4 = 0)

theorem hcond1_1 : ∀ t : Fin cfg1.N, mvLast (grid1.coords t) ↔ t.val % 4 = 3 :=
  (by decide +kernel : ∀ t : Fin grid1.N, mvLast (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬mvLast (grid1.coords t) → cfg1.idle 2 (grid1.coords t) = true := by decide +kernel
theorem noFlush1_2 : ∀ t : Fin cfg1.N, ¬mvLast (grid1.coords t) → (cfg1.win 2).flush t = false := by decide +kernel
theorem liveAt1_2 : ∀ t : Fin cfg1.N, mvLast (grid1.coords t) → cfg1.idle 2 (grid1.coords t) = false := by decide +kernel

abbrev ms1_0 (t : Fin cfg1.N) : Memref sig .tc .vmem S1x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)

abbrev scM1_0 : Memref sig .tc .vmem S1x1024 .f32 := Memref.whole cc1_scratch0

theorem PhiA1_eq (c : Dev nD) :
    (Pipeline.ΦA spec1 c : sProp 𝕄)
      = iprop(iprop(iprop(∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-- What the region hands the kernel at each position: its coordinates, operands and input tiles. -/
abbrev ops1 (c : Dev nD) : MvOps F where
  i n hn := grid1.coords ⟨n, hn⟩
  first n hn := hcond1_0 ⟨n, hn⟩
  last n hn := hcond1_1 ⟨n, hn⟩
  a2 n hn := ms1_0 ⟨n, hn⟩
  h2 n hn := hs1_0 ⟨n, hn⟩
  a3 n hn := ms1_1 ⟨n, hn⟩
  h3 n hn := hs1_1 ⟨n, hn⟩
  a4 n hn := ms1_2 ⟨n, hn⟩
  h4 n hn := hs1_2 ⟨n, hn⟩
  acc := scM1_0
  hacc := Memref.isWhole_whole _
  x0 n hn := iblk1 V c 0 ⟨n, hn⟩
  x1 n hn := iblk1 V c 1 ⟨n, hn⟩

/-- The body at point `t` is the one matrix-vector kernel at the point's coordinates and operands. -/
theorem bodyAt1_eq (t : Fin cfg1.N) : bodyAt1 (F := F) t
    = mvKernel (grid1.coords t) (ms1_0 t) (hs1_0 t) (ms1_1 t) (hs1_1 t) (ms1_2 t) (hs1_2 t) scM1_0 (Memref.isWhole_whole _) := rfl

end Cert.Kernel.Hand

end
-- ==== Proof.K.Reg1.lean ====
import proofs.«151769_j20177756357157_1_alg».proof.Proof.K.Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the region keeps beside the accumulator. -/
abbrev rest1 (c : Dev nD) : sProp 𝕄 :=
  Pipeline.scopedRestBut (Ix := Unit) (Name := ℕ) (U := UR sig nD τ) (Lvl := ℕ) (Val := Elt F) spec1 c [cc1_scratch0]

/-- The region's proof data: the arrays as the region finds them; after a position each input window holds its tile and
    the output window what the position left. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (mvOutsAt (ops1 V c) c t.val t.isLt).1
  Φ t := mvPhi (ops1 V c) c (rest1 c) t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl
theorem recorded_eq1 (c : Dev nD) (t : Fin (cfg1.N + 1)) : (dat1 V c).recorded t = Set.univ := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (mvOutsAt (ops1 V c) c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point is the kernel's step at the point's position: a last row tile writes the output tile, any other
    leaves its buffer as it was. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1]
  rw [show (dat1 V c).owesAt () t.succ = (dat1 V c).owesAt () t.castSucc from rfl]
  rw [show (dat1 V c).Φ t.succ = mvPhi (ops1 V c) c (rest1 c) (t.val + 1) t.isLt from rfl,
    show (dat1 V c).Φ t.castSucc = mvPhi (ops1 V c) c (rest1 c) t.val (Nat.le_of_lt t.isLt) from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 4 = 3
  · rw [show (dat1 V c).leavesExact 2 t = owns (c : Thread nD τ) (ms1_2 t) fullShare ((dat1 V c).after 2 t) from by
      unfold Dat.leavesExact; rw [liveAt1_2 t ((hcond1_1 t).mpr h1)], after1_2]
    iintro ⟨HΦ, Ho, ⟨%d0, H0⟩, ⟨%d1, H1⟩, ⟨%d2, H2⟩⟩
    iapply (mvPointLast (ops1 V c) c _ t.val t.isLt h1 _)
    isplitl [HΦ]; · iexact HΦ
    isplitl [Ho]; · iexact Ho
    isplitl [H0]; · iexact H0
    isplitl [H1]; · iexact H1
    iexists _; iexact H2
  · rw [Dat.leavesExact_idle (dat1 V c) 2 t (idleAt1_2 t (fun h => h1 ((hcond1_1 t).mp h))) (noFlush1_2 t (fun h => h1 ((hcond1_1 t).mp h)))]
    iintro ⟨HΦ, Ho, ⟨%d0, H0⟩, ⟨%d1, H1⟩, ⟨%d2, H2⟩⟩
    iapply (mvPoint (ops1 V c) c _ t.val t.isLt h1 _ _ ((dat1 V c).before 2 t d2) (by iintro H; iexists d2; iexact H))
    isplitl [HΦ]; · iexact HΦ
    isplitl [Ho]; · iexact Ho
    isplitl [H0]; · iexact H0
    isplitl [H1]; · iexact H1
    iexact H2

theorem body_obligation1 (c : Dev nD) : BodyObligation (dat1 (F := F) V c) (defs₀ (F := F)) Variants.none () Set.univ := fun t => by
  rw [bigSep_W1, bigSep_W1]
  exact sound_body1 V c t

/-- Before the first point the invariant is the region's own, with the accumulator singled out. -/
theorem hin1 (c : Dev nD) : (Pipeline.ΦA spec1 c : sProp 𝕄) ⊢ (dat1 V c).Φ 0 := by
  rw [PhiA1_eq]
  exact Idealize.SL.BI.Entails.refl _

/-- After the last point the accumulator's contents are forgotten. -/
theorem hout1 (c : Dev nD) : (dat1 V c).Φ (Fin.last cfg1.N) ⊢ (Pipeline.ΦA spec1 c : sProp 𝕄) := by
  rw [PhiA1_eq]
  exact mvPhi_start (ops1 V c) c (rest1 c) (Fin.last cfg1.N).val (Nat.le_of_lt_succ (Fin.last cfg1.N).isLt)

end Cert.Kernel.Hand

end
-- ==== Proof.K.Reg2Runs.lean ====
import proofs.«151769_j20177756357157_1_alg».proof.Proof.K.MvPoint

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hcond2_0 : ∀ t : Fin cfg2.N, mvFirst (grid2.coords t) ↔ t.val % 4 = 0 :=
  (by decide +kernel : ∀ t : Fin grid2.N, mvFirst (grid2.coords t) ↔ t.val % 4 = 0)

theorem hcond2_1 : ∀ t : Fin cfg2.N, mvLast (grid2.coords t) ↔ t.val % 4 = 3 :=
  (by decide +kernel : ∀ t : Fin grid2.N, mvLast (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬mvLast (grid2.coords t) → cfg2.idle 2 (grid2.coords t) = true := by decide +kernel
theorem noFlush2_2 : ∀ t : Fin cfg2.N, ¬mvLast (grid2.coords t) → (cfg2.win 2).flush t = false := by decide +kernel
theorem liveAt2_2 : ∀ t : Fin cfg2.N, mvLast (grid2.coords t) → cfg2.idle 2 (grid2.coords t) = false := by decide +kernel

abbrev ms2_0 (t : Fin cfg2.N) : Memref sig .tc .vmem S1x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)

abbrev scM2_0 : Memref sig .tc .vmem S1x1024 .f32 := Memref.whole cc2_scratch0

theorem PhiA2_eq (c : Dev nD) :
    (Pipeline.ΦA spec2 c : sProp 𝕄)
      = iprop(iprop(iprop(∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-- What the region hands the kernel at each position: its coordinates, operands and input tiles. -/
abbrev ops2 (c : Dev nD) : MvOps F where
  i n hn := grid2.coords ⟨n, hn⟩
  first n hn := hcond2_0 ⟨n, hn⟩
  last n hn := hcond2_1 ⟨n, hn⟩
  a2 n hn := ms2_0 ⟨n, hn⟩
  h2 n hn := hs2_0 ⟨n, hn⟩
  a3 n hn := ms2_1 ⟨n, hn⟩
  h3 n hn := hs2_1 ⟨n, hn⟩
  a4 n hn := ms2_2 ⟨n, hn⟩
  h4 n hn := hs2_2 ⟨n, hn⟩
  acc := scM2_0
  hacc := Memref.isWhole_whole _
  x0 n hn := iblk2 V c 0 ⟨n, hn⟩
  x1 n hn := iblk2 V c 1 ⟨n, hn⟩

/-- The body at point `t` is the one matrix-vector kernel at the point's coordinates and operands. -/
theorem bodyAt2_eq (t : Fin cfg2.N) : bodyAt2 (F := F) t
    = mvKernel (grid2.coords t) (ms2_0 t) (hs2_0 t) (ms2_1 t) (hs2_1 t) (ms2_2 t) (hs2_2 t) scM2_0 (Memref.isWhole_whole _) := rfl

end Cert.Kernel.Hand

end
-- ==== Proof.K.Reg2.lean ====
import proofs.«151769_j20177756357157_1_alg».proof.Proof.K.Reg2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the region keeps beside the accumulator. -/
abbrev rest2 (c : Dev nD) : sProp 𝕄 :=
  Pipeline.scopedRestBut (Ix := Unit) (Name := ℕ) (U := UR sig nD τ) (Lvl := ℕ) (Val := Elt F) spec2 c [cc2_scratch0]

/-- The region's proof data: the arrays as the region finds them; after a position each input window holds its tile and
    the output window what the position left. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (mvOutsAt (ops2 V c) c t.val t.isLt).1
  Φ t := mvPhi (ops2 V c) c (rest2 c) t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl
theorem owed_eq2 (c : Dev nD) (t : Fin (cfg2.N + 1)) : (dat2 V c).owed t = 0 := rfl
theorem recorded_eq2 (c : Dev nD) (t : Fin (cfg2.N + 1)) : (dat2 V c).recorded t = Set.univ := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (mvOutsAt (ops2 V c) c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 8000000 in
/-- The body at any point is the kernel's step at the point's position: a last row tile writes the output tile, any other
    leaves its buffer as it was. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  rw [bodyAt2_eq]
  simp only [before2_0, before2_1]
  rw [show (dat2 V c).owesAt () t.succ = (dat2 V c).owesAt () t.castSucc from rfl]
  rw [show (dat2 V c).Φ t.succ = mvPhi (ops2 V c) c (rest2 c) (t.val + 1) t.isLt from rfl,
    show (dat2 V c).Φ t.castSucc = mvPhi (ops2 V c) c (rest2 c) t.val (Nat.le_of_lt t.isLt) from rfl]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 4 = 3
  · rw [show (dat2 V c).leavesExact 2 t = owns (c : Thread nD τ) (ms2_2 t) fullShare ((dat2 V c).after 2 t) from by
      unfold Dat.leavesExact; rw [liveAt2_2 t ((hcond2_1 t).mpr h1)], after2_2]
    iintro ⟨HΦ, Ho, ⟨%d0, H0⟩, ⟨%d1, H1⟩, ⟨%d2, H2⟩⟩
    iapply (mvPointLast (ops2 V c) c _ t.val t.isLt h1 _)
    isplitl [HΦ]; · iexact HΦ
    isplitl [Ho]; · iexact Ho
    isplitl [H0]; · iexact H0
    isplitl [H1]; · iexact H1
    iexists _; iexact H2
  · rw [Dat.leavesExact_idle (dat2 V c) 2 t (idleAt2_2 t (fun h => h1 ((hcond2_1 t).mp h))) (noFlush2_2 t (fun h => h1 ((hcond2_1 t).mp h)))]
    iintro ⟨HΦ, Ho, ⟨%d0, H0⟩, ⟨%d1, H1⟩, ⟨%d2, H2⟩⟩
    iapply (mvPoint (ops2 V c) c _ t.val t.isLt h1 _ _ ((dat2 V c).before 2 t d2) (by iintro H; iexists d2; iexact H))
    isplitl [HΦ]; · iexact HΦ
    isplitl [Ho]; · iexact Ho
    isplitl [H0]; · iexact H0
    isplitl [H1]; · iexact H1
    iexact H2

theorem body_obligation2 (c : Dev nD) : BodyObligation (dat2 (F := F) V c) (defs₀ (F := F)) Variants.none () Set.univ := fun t => by
  rw [bigSep_W2, bigSep_W2]
  exact sound_body2 V c t

/-- Before the first point the invariant is the region's own, with the accumulator singled out. -/
theorem hin2 (c : Dev nD) : (Pipeline.ΦA spec2 c : sProp 𝕄) ⊢ (dat2 V c).Φ 0 := by
  rw [PhiA2_eq]
  exact Idealize.SL.BI.Entails.refl _

/-- After the last point the accumulator's contents are forgotten. -/
theorem hout2 (c : Dev nD) : (dat2 V c).Φ (Fin.last cfg2.N) ⊢ (Pipeline.ΦA spec2 c : sProp 𝕄) := by
  rw [PhiA2_eq]
  exact mvPhi_start (ops2 V c) c (rest2 c) (Fin.last cfg2.N).val (Nat.le_of_lt_succ (Fin.last cfg2.N).isLt)

end Cert.Kernel.Hand

end
-- ==== Proof.K.Reg3Runs.lean ====
import proofs.«151769_j20177756357157_1_alg».proof.Proof.K.MvPoint

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem hcond3_0 : ∀ t : Fin cfg3.N, mvFirst (grid3.coords t) ↔ t.val % 4 = 0 :=
  (by decide +kernel : ∀ t : Fin grid3.N, mvFirst (grid3.coords t) ↔ t.val % 4 = 0)

theorem hcond3_1 : ∀ t : Fin cfg3.N, mvLast (grid3.coords t) ↔ t.val % 4 = 3 :=
  (by decide +kernel : ∀ t : Fin grid3.N, mvLast (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬mvLast (grid3.coords t) → cfg3.idle 2 (grid3.coords t) = true := by decide +kernel
theorem noFlush3_2 : ∀ t : Fin cfg3.N, ¬mvLast (grid3.coords t) → (cfg3.win 2).flush t = false := by decide +kernel
theorem liveAt3_2 : ∀ t : Fin cfg3.N, mvLast (grid3.coords t) → cfg3.idle 2 (grid3.coords t) = false := by decide +kernel

abbrev ms3_0 (t : Fin cfg3.N) : Memref sig .tc .vmem S1x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)

abbrev scM3_0 : Memref sig .tc .vmem S1x1024 .f32 := Memref.whole cc3_scratch0

theorem PhiA3_eq (c : Dev nD) :
    (Pipeline.ΦA spec3 c : sProp 𝕄)
      = iprop(iprop(iprop(∃ d, owns (c : Thread nD τ) scM3_0 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-- What the region hands the kernel at each position: its coordinates, operands and input tiles. -/
abbrev ops3 (c : Dev nD) : MvOps F where
  i n hn := grid3.coords ⟨n, hn⟩
  first n hn := hcond3_0 ⟨n, hn⟩
  last n hn := hcond3_1 ⟨n, hn⟩
  a2 n hn := ms3_0 ⟨n, hn⟩
  h2 n hn := hs3_0 ⟨n, hn⟩
  a3 n hn := ms3_1 ⟨n, hn⟩
  h3 n hn := hs3_1 ⟨n, hn⟩
  a4 n hn := ms3_2 ⟨n, hn⟩
  h4 n hn := hs3_2 ⟨n, hn⟩
  acc := scM3_0
  hacc := Memref.isWhole_whole _
  x0 n hn := iblk3 V c 0 ⟨n, hn⟩
  x1 n hn := iblk3 V c 1 ⟨n, hn⟩

/-- The body at point `t` is the one matrix-vector kernel at the point's coordinates and operands. -/
theorem bodyAt3_eq (t : Fin cfg3.N) : bodyAt3 (F := F) t
    = mvKernel (grid3.coords t) (ms3_0 t) (hs3_0 t) (ms3_1 t) (hs3_1 t) (ms3_2 t) (hs3_2 t) scM3_0 (Memref.isWhole_whole _) := rfl

end Cert.Kernel.Hand

end
-- ==== Proof.K.Reg3.lean ====
import proofs.«151769_j20177756357157_1_alg».proof.Proof.K.Reg3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the region keeps beside the accumulator. -/
abbrev rest3 (c : Dev nD) : sProp 𝕄 :=
  Pipeline.scopedRestBut (Ix := Unit) (Name := ℕ) (U := UR sig nD τ) (Lvl := ℕ) (Val := Elt F) spec3 c [cc3_scratch0]

/-- The region's proof data: the arrays as the region finds them; after a position each input window holds its tile and
    the output window what the position left. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (mvOutsAt (ops3 V c) c t.val t.isLt).1
  Φ t := mvPhi (ops3 V c) c (rest3 c) t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl
theorem recorded_eq3 (c : Dev nD) (t : Fin (cfg3.N + 1)) : (dat3 V c).recorded t = Set.univ := rfl

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (mvOutsAt (ops3 V c) c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 8000000 in
/-- The body at any point is the kernel's step at the point's position: a last row tile writes the output tile, any other
    leaves its buffer as it was. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3
  rw [bodyAt3_eq]
  simp only [before3_0, before3_1]
  rw [show (dat3 V c).owesAt () t.succ = (dat3 V c).owesAt () t.castSucc from rfl]
  rw [show (dat3 V c).Φ t.succ = mvPhi (ops3 V c) c (rest3 c) (t.val + 1) t.isLt from rfl,
    show (dat3 V c).Φ t.castSucc = mvPhi (ops3 V c) c (rest3 c) t.val (Nat.le_of_lt t.isLt) from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h1 : t.val % 4 = 3
  · rw [show (dat3 V c).leavesExact 2 t = owns (c : Thread nD τ) (ms3_2 t) fullShare ((dat3 V c).after 2 t) from by
      unfold Dat.leavesExact; rw [liveAt3_2 t ((hcond3_1 t).mpr h1)], after3_2]
    iintro ⟨HΦ, Ho, ⟨%d0, H0⟩, ⟨%d1, H1⟩, ⟨%d2, H2⟩⟩
    iapply (mvPointLast (ops3 V c) c _ t.val t.isLt h1 _)
    isplitl [HΦ]; · iexact HΦ
    isplitl [Ho]; · iexact Ho
    isplitl [H0]; · iexact H0
    isplitl [H1]; · iexact H1
    iexists _; iexact H2
  · rw [Dat.leavesExact_idle (dat3 V c) 2 t (idleAt3_2 t (fun h => h1 ((hcond3_1 t).mp h))) (noFlush3_2 t (fun h => h1 ((hcond3_1 t).mp h)))]
    iintro ⟨HΦ, Ho, ⟨%d0, H0⟩, ⟨%d1, H1⟩, ⟨%d2, H2⟩⟩
    iapply (mvPoint (ops3 V c) c _ t.val t.isLt h1 _ _ ((dat3 V c).before 2 t d2) (by iintro H; iexists d2; iexact H))
    isplitl [HΦ]; · iexact HΦ
    isplitl [Ho]; · iexact Ho
    isplitl [H0]; · iexact H0
    isplitl [H1]; · iexact H1
    iexact H2

theorem body_obligation3 (c : Dev nD) : BodyObligation (dat3 (F := F) V c) (defs₀ (F := F)) Variants.none () Set.univ := fun t => by
  rw [bigSep_W3, bigSep_W3]
  exact sound_body3 V c t

/-- Before the first point the invariant is the region's own, with the accumulator singled out. -/
theorem hin3 (c : Dev nD) : (Pipeline.ΦA spec3 c : sProp 𝕄) ⊢ (dat3 V c).Φ 0 := by
  rw [PhiA3_eq]
  exact Idealize.SL.BI.Entails.refl _

/-- After the last point the accumulator's contents are forgotten. -/
theorem hout3 (c : Dev nD) : (dat3 V c).Φ (Fin.last cfg3.N) ⊢ (Pipeline.ΦA spec3 c : sProp 𝕄) := by
  rw [PhiA3_eq]
  exact mvPhi_start (ops3 V c) c (rest3 c) (Fin.last cfg3.N).val (Nat.le_of_lt_succ (Fin.last cfg3.N).isLt)

end Cert.Kernel.Hand

end
-- ==== Proof.K.Reg4Runs.lean ====
import proofs.«151769_j20177756357157_1_alg».proof.Proof.K.MvPoint

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem hcond4_0 : ∀ t : Fin cfg4.N, mvFirst (grid4.coords t) ↔ t.val % 4 = 0 :=
  (by decide +kernel : ∀ t : Fin grid4.N, mvFirst (grid4.coords t) ↔ t.val % 4 = 0)

theorem hcond4_1 : ∀ t : Fin cfg4.N, mvLast (grid4.coords t) ↔ t.val % 4 = 3 :=
  (by decide +kernel : ∀ t : Fin grid4.N, mvLast (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬mvLast (grid4.coords t) → cfg4.idle 2 (grid4.coords t) = true := by decide +kernel
theorem noFlush4_2 : ∀ t : Fin cfg4.N, ¬mvLast (grid4.coords t) → (cfg4.win 2).flush t = false := by decide +kernel
theorem liveAt4_2 : ∀ t : Fin cfg4.N, mvLast (grid4.coords t) → cfg4.idle 2 (grid4.coords t) = false := by decide +kernel

abbrev ms4_0 (t : Fin cfg4.N) : Memref sig .tc .vmem S1x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)

abbrev scM4_0 : Memref sig .tc .vmem S1x1024 .f32 := Memref.whole cc4_scratch0

theorem PhiA4_eq (c : Dev nD) :
    (Pipeline.ΦA spec4 c : sProp 𝕄)
      = iprop(iprop(iprop(∃ d, owns (c : Thread nD τ) scM4_0 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-- What the region hands the kernel at each position: its coordinates, operands and input tiles. -/
abbrev ops4 (c : Dev nD) : MvOps F where
  i n hn := grid4.coords ⟨n, hn⟩
  first n hn := hcond4_0 ⟨n, hn⟩
  last n hn := hcond4_1 ⟨n, hn⟩
  a2 n hn := ms4_0 ⟨n, hn⟩
  h2 n hn := hs4_0 ⟨n, hn⟩
  a3 n hn := ms4_1 ⟨n, hn⟩
  h3 n hn := hs4_1 ⟨n, hn⟩
  a4 n hn := ms4_2 ⟨n, hn⟩
  h4 n hn := hs4_2 ⟨n, hn⟩
  acc := scM4_0
  hacc := Memref.isWhole_whole _
  x0 n hn := iblk4 V c 0 ⟨n, hn⟩
  x1 n hn := iblk4 V c 1 ⟨n, hn⟩

/-- The body at point `t` is the one matrix-vector kernel at the point's coordinates and operands. -/
theorem bodyAt4_eq (t : Fin cfg4.N) : bodyAt4 (F := F) t
    = mvKernel (grid4.coords t) (ms4_0 t) (hs4_0 t) (ms4_1 t) (hs4_1 t) (ms4_2 t) (hs4_2 t) scM4_0 (Memref.isWhole_whole _) := rfl

end Cert.Kernel.Hand

end
-- ==== Proof.K.Reg4.lean ====
import proofs.«151769_j20177756357157_1_alg».proof.Proof.K.Reg4Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the region keeps beside the accumulator. -/
abbrev rest4 (c : Dev nD) : sProp 𝕄 :=
  Pipeline.scopedRestBut (Ix := Unit) (Name := ℕ) (U := UR sig nD τ) (Lvl := ℕ) (Val := Elt F) spec4 c [cc4_scratch0]

/-- The region's proof data: the arrays as the region finds them; after a position each input window holds its tile and
    the output window what the position left. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (mvOutsAt (ops4 V c) c t.val t.isLt).1
  Φ t := mvPhi (ops4 V c) c (rest4 c) t.val (Nat.le_of_lt_succ t.isLt)
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := rfl
theorem owed_eq4 (c : Dev nD) (t : Fin (cfg4.N + 1)) : (dat4 V c).owed t = 0 := rfl
theorem recorded_eq4 (c : Dev nD) (t : Fin (cfg4.N + 1)) : (dat4 V c).recorded t = Set.univ := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (mvOutsAt (ops4 V c) c t.val t.isLt).1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 8000000 in
/-- The body at any point is the kernel's step at the point's position: a last row tile writes the output tile, any other
    leaves its buffer as it was. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4
  rw [bodyAt4_eq]
  simp only [before4_0, before4_1]
  rw [show (dat4 V c).owesAt () t.succ = (dat4 V c).owesAt () t.castSucc from rfl]
  rw [show (dat4 V c).Φ t.succ = mvPhi (ops4 V c) c (rest4 c) (t.val + 1) t.isLt from rfl,
    show (dat4 V c).Φ t.castSucc = mvPhi (ops4 V c) c (rest4 c) t.val (Nat.le_of_lt t.isLt) from rfl]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h1 : t.val % 4 = 3
  · rw [show (dat4 V c).leavesExact 2 t = owns (c : Thread nD τ) (ms4_2 t) fullShare ((dat4 V c).after 2 t) from by
      unfold Dat.leavesExact; rw [liveAt4_2 t ((hcond4_1 t).mpr h1)], after4_2]
    iintro ⟨HΦ, Ho, ⟨%d0, H0⟩, ⟨%d1, H1⟩, ⟨%d2, H2⟩⟩
    iapply (mvPointLast (ops4 V c) c _ t.val t.isLt h1 _)
    isplitl [HΦ]; · iexact HΦ
    isplitl [Ho]; · iexact Ho
    isplitl [H0]; · iexact H0
    isplitl [H1]; · iexact H1
    iexists _; iexact H2
  · rw [Dat.leavesExact_idle (dat4 V c) 2 t (idleAt4_2 t (fun h => h1 ((hcond4_1 t).mp h))) (noFlush4_2 t (fun h => h1 ((hcond4_1 t).mp h)))]
    iintro ⟨HΦ, Ho, ⟨%d0, H0⟩, ⟨%d1, H1⟩, ⟨%d2, H2⟩⟩
    iapply (mvPoint (ops4 V c) c _ t.val t.isLt h1 _ _ ((dat4 V c).before 2 t d2) (by iintro H; iexists d2; iexact H))
    isplitl [HΦ]; · iexact HΦ
    isplitl [Ho]; · iexact Ho
    isplitl [H0]; · iexact H0
    isplitl [H1]; · iexact H1
    iexact H2

theorem body_obligation4 (c : Dev nD) : BodyObligation (dat4 (F := F) V c) (defs₀ (F := F)) Variants.none () Set.univ := fun t => by
  rw [bigSep_W4, bigSep_W4]
  exact sound_body4 V c t

/-- Before the first point the invariant is the region's own, with the accumulator singled out. -/
theorem hin4 (c : Dev nD) : (Pipeline.ΦA spec4 c : sProp 𝕄) ⊢ (dat4 V c).Φ 0 := by
  rw [PhiA4_eq]
  exact Idealize.SL.BI.Entails.refl _

/-- After the last point the accumulator's contents are forgotten. -/
theorem hout4 (c : Dev nD) : (dat4 V c).Φ (Fin.last cfg4.N) ⊢ (Pipeline.ΦA spec4 c : sProp 𝕄) := by
  rw [PhiA4_eq]
  exact mvPhi_start (ops4 V c) c (rest4 c) (Fin.last cfg4.N).val (Nat.le_of_lt_succ (Fin.last cfg4.N).isLt)

end Cert.Kernel.Hand

end
-- ==== Proof.K.Reg5Runs.lean ====
import proofs.«151769_j20177756357157_1_alg».proof.Proof.K.MvPoint

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem hcond5_0 : ∀ t : Fin cfg5.N, mvFirst (grid5.coords t) ↔ t.val % 4 = 0 :=
  (by decide +kernel : ∀ t : Fin grid5.N, mvFirst (grid5.coords t) ↔ t.val % 4 = 0)

theorem hcond5_1 : ∀ t : Fin cfg5.N, mvLast (grid5.coords t) ↔ t.val % 4 = 3 :=
  (by decide +kernel : ∀ t : Fin grid5.N, mvLast (grid5.coords t) ↔ t.val % 4 = 3)

theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2 : ∀ t : Fin cfg5.N, ¬mvLast (grid5.coords t) → cfg5.idle 2 (grid5.coords t) = true := by decide +kernel
theorem noFlush5_2 : ∀ t : Fin cfg5.N, ¬mvLast (grid5.coords t) → (cfg5.win 2).flush t = false := by decide +kernel
theorem liveAt5_2 : ∀ t : Fin cfg5.N, mvLast (grid5.coords t) → cfg5.idle 2 (grid5.coords t) = false := by decide +kernel

abbrev ms5_0 (t : Fin cfg5.N) : Memref sig .tc .vmem S1x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1024 .f32 := win5_2.stage (cfg5.slots t 2)
abbrev hs5_2 (t : Fin cfg5.N) : (ms5_2 t).IsWhole := hstage5_2 ((cfg5.slots t 2).cast nbuf5_2)

abbrev scM5_0 : Memref sig .tc .vmem S1x1024 .f32 := Memref.whole cc5_scratch0

theorem PhiA5_eq (c : Dev nD) :
    (Pipeline.ΦA spec5 c : sProp 𝕄)
      = iprop(iprop(iprop(∃ d, owns (c : Thread nD τ) scM5_0 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

/-- What the region hands the kernel at each position: its coordinates, operands and input tiles. -/
abbrev ops5 (c : Dev nD) : MvOps F where
  i n hn := grid5.coords ⟨n, hn⟩
  first n hn := hcond5_0 ⟨n, hn⟩
  last n hn := hcond5_1 ⟨n, hn⟩
  a2 n hn := ms5_0 ⟨n, hn⟩
  h2 n hn := hs5_0 ⟨n, hn⟩
  a3 n hn := ms5_1 ⟨n, hn⟩
  h3 n hn := hs5_1 ⟨n, hn⟩
  a4 n hn := ms5_2 ⟨n, hn⟩
  h4 n hn := hs5_2 ⟨n, hn⟩
  acc := scM5_0
  hacc := Memref.isWhole_whole _
  x0 n hn := iblk5 V c 0 ⟨n, hn⟩
  x1 n hn := iblk5 V c 1 ⟨n, hn⟩

/-- The body at point `t` is the one matrix-vector kernel at the point's coordinates and operands. -/
theorem bodyAt5_eq (t : Fin cfg5.N) : bodyAt5 (F := F) t
    = mvKernel (grid5.coords t) (ms5_0 t) (hs5_0 t) (ms5_1 t) (hs5_1 t) (ms5_2 t) (hs5_2 t) scM5_0 (Memref.isWhole_whole _) := rfl

end Cert.Kernel.Hand

end
-- ==== Proof.K.Reg5.lean ====
import proofs.«151769_j20177756357157_1_alg».proof.Proof.K.Reg5Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the region keeps beside the accumulator. -/
abbrev rest5 (c : Dev nD) : sProp 𝕄 :=
  Pipeline.scopedRestBut (Ix := Unit) (Name := ℕ) (U := UR sig nD τ) (Lvl := ℕ) (Val := Elt F) spec5 c [cc5_scratch0]

/-- The region's proof data: the arrays as the region finds them; after a position each input window holds its tile and
    the output window what the position left. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (mvOutsAt (ops5 V c) c t.val t.isLt).1
  Φ t := mvPhi (ops5 V c) c (rest5 c) t.val (Nat.le_of_lt_succ t.isLt)
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := rfl
theorem owed_eq5 (c : Dev nD) (t : Fin (cfg5.N + 1)) : (dat5 V c).owed t = 0 := rfl
theorem recorded_eq5 (c : Dev nD) (t : Fin (cfg5.N + 1)) : (dat5 V c).recorded t = Set.univ := rfl

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (mvOutsAt (ops5 V c) c t.val t.isLt).1 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 8000000 in
/-- The body at any point is the kernel's step at the point's position: a last row tile writes the output tile, any other
    leaves its buffer as it was. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5
  rw [bodyAt5_eq]
  simp only [before5_0, before5_1]
  rw [show (dat5 V c).owesAt () t.succ = (dat5 V c).owesAt () t.castSucc from rfl]
  rw [show (dat5 V c).Φ t.succ = mvPhi (ops5 V c) c (rest5 c) (t.val + 1) t.isLt from rfl,
    show (dat5 V c).Φ t.castSucc = mvPhi (ops5 V c) c (rest5 c) t.val (Nat.le_of_lt t.isLt) from rfl]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  by_cases h1 : t.val % 4 = 3
  · rw [show (dat5 V c).leavesExact 2 t = owns (c : Thread nD τ) (ms5_2 t) fullShare ((dat5 V c).after 2 t) from by
      unfold Dat.leavesExact; rw [liveAt5_2 t ((hcond5_1 t).mpr h1)], after5_2]
    iintro ⟨HΦ, Ho, ⟨%d0, H0⟩, ⟨%d1, H1⟩, ⟨%d2, H2⟩⟩
    iapply (mvPointLast (ops5 V c) c _ t.val t.isLt h1 _)
    isplitl [HΦ]; · iexact HΦ
    isplitl [Ho]; · iexact Ho
    isplitl [H0]; · iexact H0
    isplitl [H1]; · iexact H1
    iexists _; iexact H2
  · rw [Dat.leavesExact_idle (dat5 V c) 2 t (idleAt5_2 t (fun h => h1 ((hcond5_1 t).mp h))) (noFlush5_2 t (fun h => h1 ((hcond5_1 t).mp h)))]
    iintro ⟨HΦ, Ho, ⟨%d0, H0⟩, ⟨%d1, H1⟩, ⟨%d2, H2⟩⟩
    iapply (mvPoint (ops5 V c) c _ t.val t.isLt h1 _ _ ((dat5 V c).before 2 t d2) (by iintro H; iexists d2; iexact H))
    isplitl [HΦ]; · iexact HΦ
    isplitl [Ho]; · iexact Ho
    isplitl [H0]; · iexact H0
    isplitl [H1]; · iexact H1
    iexact H2

theorem body_obligation5 (c : Dev nD) : BodyObligation (dat5 (F := F) V c) (defs₀ (F := F)) Variants.none () Set.univ := fun t => by
  rw [bigSep_W5, bigSep_W5]
  exact sound_body5 V c t

/-- Before the first point the invariant is the region's own, with the accumulator singled out. -/
theorem hin5 (c : Dev nD) : (Pipeline.ΦA spec5 c : sProp 𝕄) ⊢ (dat5 V c).Φ 0 := by
  rw [PhiA5_eq]
  exact Idealize.SL.BI.Entails.refl _

/-- After the last point the accumulator's contents are forgotten. -/
theorem hout5 (c : Dev nD) : (dat5 V c).Φ (Fin.last cfg5.N) ⊢ (Pipeline.ΦA spec5 c : sProp 𝕄) := by
  rw [PhiA5_eq]
  exact mvPhi_start (ops5 V c) c (rest5 c) (Fin.last cfg5.N).val (Nat.le_of_lt_succ (Fin.last cfg5.N).isLt)

end Cert.Kernel.Hand

end
-- ==== Proof.K.Reg6Runs.lean ====
import proofs.«151769_j20177756357157_1_alg».proof.Proof.K.MvPoint

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem hcond6_0 : ∀ t : Fin cfg6.N, mvFirst (grid6.coords t) ↔ t.val % 4 = 0 :=
  (by decide +kernel : ∀ t : Fin grid6.N, mvFirst (grid6.coords t) ↔ t.val % 4 = 0)

theorem hcond6_1 : ∀ t : Fin cfg6.N, mvLast (grid6.coords t) ↔ t.val % 4 = 3 :=
  (by decide +kernel : ∀ t : Fin grid6.N, mvLast (grid6.coords t) ↔ t.val % 4 = 3)

theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬mvLast (grid6.coords t) → cfg6.idle 2 (grid6.coords t) = true := by decide +kernel
theorem noFlush6_2 : ∀ t : Fin cfg6.N, ¬mvLast (grid6.coords t) → (cfg6.win 2).flush t = false := by decide +kernel
theorem liveAt6_2 : ∀ t : Fin cfg6.N, mvLast (grid6.coords t) → cfg6.idle 2 (grid6.coords t) = false := by decide +kernel

abbrev ms6_0 (t : Fin cfg6.N) : Memref sig .tc .vmem S1x1024 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x1024 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x1024 .f32 := win6_2.stage (cfg6.slots t 2)
abbrev hs6_2 (t : Fin cfg6.N) : (ms6_2 t).IsWhole := hstage6_2 ((cfg6.slots t 2).cast nbuf6_2)

abbrev scM6_0 : Memref sig .tc .vmem S1x1024 .f32 := Memref.whole cc6_scratch0

theorem PhiA6_eq (c : Dev nD) :
    (Pipeline.ΦA spec6 c : sProp 𝕄)
      = iprop(iprop(iprop(∃ d, owns (c : Thread nD τ) scM6_0 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

/-- What the region hands the kernel at each position: its coordinates, operands and input tiles. -/
abbrev ops6 (c : Dev nD) : MvOps F where
  i n hn := grid6.coords ⟨n, hn⟩
  first n hn := hcond6_0 ⟨n, hn⟩
  last n hn := hcond6_1 ⟨n, hn⟩
  a2 n hn := ms6_0 ⟨n, hn⟩
  h2 n hn := hs6_0 ⟨n, hn⟩
  a3 n hn := ms6_1 ⟨n, hn⟩
  h3 n hn := hs6_1 ⟨n, hn⟩
  a4 n hn := ms6_2 ⟨n, hn⟩
  h4 n hn := hs6_2 ⟨n, hn⟩
  acc := scM6_0
  hacc := Memref.isWhole_whole _
  x0 n hn := iblk6 V c 0 ⟨n, hn⟩
  x1 n hn := iblk6 V c 1 ⟨n, hn⟩

/-- The body at point `t` is the one matrix-vector kernel at the point's coordinates and operands. -/
theorem bodyAt6_eq (t : Fin cfg6.N) : bodyAt6 (F := F) t
    = mvKernel (grid6.coords t) (ms6_0 t) (hs6_0 t) (ms6_1 t) (hs6_1 t) (ms6_2 t) (hs6_2 t) scM6_0 (Memref.isWhole_whole _) := rfl

end Cert.Kernel.Hand

end
-- ==== Proof.K.Reg6.lean ====
import proofs.«151769_j20177756357157_1_alg».proof.Proof.K.Reg6Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the region keeps beside the accumulator. -/
abbrev rest6 (c : Dev nD) : sProp 𝕄 :=
  Pipeline.scopedRestBut (Ix := Unit) (Name := ℕ) (U := UR sig nD τ) (Lvl := ℕ) (Val := Elt F) spec6 c [cc6_scratch0]

/-- The region's proof data: the arrays as the region finds them; after a position each input window holds its tile and
    the output window what the position left. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (mvOutsAt (ops6 V c) c t.val t.isLt).1
  Φ t := mvPhi (ops6 V c) c (rest6 c) t.val (Nat.le_of_lt_succ t.isLt)
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := rfl
theorem owed_eq6 (c : Dev nD) (t : Fin (cfg6.N + 1)) : (dat6 V c).owed t = 0 := rfl
theorem recorded_eq6 (c : Dev nD) (t : Fin (cfg6.N + 1)) : (dat6 V c).recorded t = Set.univ := rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (mvOutsAt (ops6 V c) c t.val t.isLt).1 := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 8000000 in
/-- The body at any point is the kernel's step at the point's position: a last row tile writes the output tile, any other
    leaves its buffer as it was. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6
  rw [bodyAt6_eq]
  simp only [before6_0, before6_1]
  rw [show (dat6 V c).owesAt () t.succ = (dat6 V c).owesAt () t.castSucc from rfl]
  rw [show (dat6 V c).Φ t.succ = mvPhi (ops6 V c) c (rest6 c) (t.val + 1) t.isLt from rfl,
    show (dat6 V c).Φ t.castSucc = mvPhi (ops6 V c) c (rest6 c) t.val (Nat.le_of_lt t.isLt) from rfl]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  by_cases h1 : t.val % 4 = 3
  · rw [show (dat6 V c).leavesExact 2 t = owns (c : Thread nD τ) (ms6_2 t) fullShare ((dat6 V c).after 2 t) from by
      unfold Dat.leavesExact; rw [liveAt6_2 t ((hcond6_1 t).mpr h1)], after6_2]
    iintro ⟨HΦ, Ho, ⟨%d0, H0⟩, ⟨%d1, H1⟩, ⟨%d2, H2⟩⟩
    iapply (mvPointLast (ops6 V c) c _ t.val t.isLt h1 _)
    isplitl [HΦ]; · iexact HΦ
    isplitl [Ho]; · iexact Ho
    isplitl [H0]; · iexact H0
    isplitl [H1]; · iexact H1
    iexists _; iexact H2
  · rw [Dat.leavesExact_idle (dat6 V c) 2 t (idleAt6_2 t (fun h => h1 ((hcond6_1 t).mp h))) (noFlush6_2 t (fun h => h1 ((hcond6_1 t).mp h)))]
    iintro ⟨HΦ, Ho, ⟨%d0, H0⟩, ⟨%d1, H1⟩, ⟨%d2, H2⟩⟩
    iapply (mvPoint (ops6 V c) c _ t.val t.isLt h1 _ _ ((dat6 V c).before 2 t d2) (by iintro H; iexists d2; iexact H))
    isplitl [HΦ]; · iexact HΦ
    isplitl [Ho]; · iexact Ho
    isplitl [H0]; · iexact H0
    isplitl [H1]; · iexact H1
    iexact H2

theorem body_obligation6 (c : Dev nD) : BodyObligation (dat6 (F := F) V c) (defs₀ (F := F)) Variants.none () Set.univ := fun t => by
  rw [bigSep_W6, bigSep_W6]
  exact sound_body6 V c t

/-- Before the first point the invariant is the region's own, with the accumulator singled out. -/
theorem hin6 (c : Dev nD) : (Pipeline.ΦA spec6 c : sProp 𝕄) ⊢ (dat6 V c).Φ 0 := by
  rw [PhiA6_eq]
  exact Idealize.SL.BI.Entails.refl _

/-- After the last point the accumulator's contents are forgotten. -/
theorem hout6 (c : Dev nD) : (dat6 V c).Φ (Fin.last cfg6.N) ⊢ (Pipeline.ΦA spec6 c : sProp 𝕄) := by
  rw [PhiA6_eq]
  exact mvPhi_start (ops6 V c) c (rest6 c) (Fin.last cfg6.N).val (Nat.le_of_lt_succ (Fin.last cfg6.N).isLt)

end Cert.Kernel.Hand

end
-- ==== Proof.K.RunW.lean ====
import proofs.«151769_j20177756357157_1_alg».proof.Proof.Gen.Kernel.Launch
import proofs.«151769_j20177756357157_1_alg».proof.Proof.Gen.Kernel.Skeleton
import proofs.«151769_j20177756357157_1_alg».proof.Proof.Gen.Kernel.Points
import proofs.«151769_j20177756357157_1_alg».proof.Proof.K.Reg0
import proofs.«151769_j20177756357157_1_alg».proof.Proof.K.Reg1
import proofs.«151769_j20177756357157_1_alg».proof.Proof.K.Reg2
import proofs.«151769_j20177756357157_1_alg».proof.Proof.K.Reg3
import proofs.«151769_j20177756357157_1_alg».proof.Proof.K.Reg4
import proofs.«151769_j20177756357157_1_alg».proof.Proof.K.Reg5
import proofs.«151769_j20177756357157_1_alg».proof.Proof.K.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb

abbrev V5 : (c : Dev nD) → (b : Ref sig .tc) → Buf (Elt F) ((c : Thread nD τ).loc b) := fun c b => W5 m ρ c b

abbrev W6 : Dev nD → Valuation τ sig (Elt F) := fun c => StableHlo.after hostOps3 (W5 m ρ c)

abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb

abbrev V7 : (c : Dev nD) → (b : Ref sig .tc) → Buf (Elt F) ((c : Thread nD τ).loc b) := fun c b => W7 m ρ c b

def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb

abbrev V8 : (c : Dev nD) → (b : Ref sig .tc) → Buf (Elt F) ((c : Thread nD τ).loc b) := fun c b => W8 m ρ c b

abbrev W9 : Dev nD → Valuation τ sig (Elt F) := fun c => StableHlo.after hostOps5 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb

abbrev V10 : (c : Dev nD) → (b : Ref sig .tc) → Buf (Elt F) ((c : Thread nD τ).loc b) := fun c b => W10 m ρ c b

def W11 (c : Dev nD) : Valuation τ sig (Elt F) :=
  Pipeline.withArrays spec6 c (W10 m ρ c) fun w => (dat6 (V10 m ρ) c).arrAt w cfg6.N
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb

abbrev V11 : (c : Dev nD) → (b : Ref sig .tc) → Buf (Elt F) ((c : Thread nD τ).loc b) := fun c b => W11 m ρ c b

abbrev W12 : Dev nD → Valuation τ sig (Elt F) := fun c => StableHlo.after hostOps7 (W11 m ρ c)

abbrev V12 : (c : Dev nD) → (b : Ref sig .tc) → Buf (Elt F) ((c : Thread nD τ).loc b) := fun c b => W12 m ρ c b

abbrev adm : (p : Fin 7) → (pcfgs (F := F) p).Adm := fun p => (cfgs p).toPCfg_adm

def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V10 m ρ) c

end Cert.Kernel.Hand

end
-- ==== Proof.K.Run.lean ====
import proofs.«151769_j20177756357157_1_alg».proof.Proof.Gen.Kernel.Launch
import proofs.«151769_j20177756357157_1_alg».proof.Proof.Gen.Kernel.Skeleton
import proofs.«151769_j20177756357157_1_alg».proof.Proof.Gen.Kernel.Points
import proofs.«151769_j20177756357157_1_alg».proof.Proof.K.Reg0
import proofs.«151769_j20177756357157_1_alg».proof.Proof.K.Reg1
import proofs.«151769_j20177756357157_1_alg».proof.Proof.K.Reg2
import proofs.«151769_j20177756357157_1_alg».proof.Proof.K.Reg3
import proofs.«151769_j20177756357157_1_alg».proof.Proof.K.Reg4
import proofs.«151769_j20177756357157_1_alg».proof.Proof.K.Reg5
import proofs.«151769_j20177756357157_1_alg».proof.Proof.K.Reg6
import proofs.«151769_j20177756357157_1_alg».proof.Proof.K.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps3_fresh : (hostOps3 : List (HloOp τ sig (Elt F))).Forall fun op => op.fresh = ∅ := by
  simp only [List.Forall]; repeat' constructor

theorem hostOps5_fresh : (hostOps5 : List (HloOp τ sig (Elt F))).Forall fun op => op.fresh = ∅ := by
  simp only [List.Forall]; repeat' constructor

theorem hostOps7_fresh : (hostOps7 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

theorem pref_none (p : Fin 7) (c : Dev nD) :
    (Pipeline.prefHeld (pcfgs (F := F) p).pre c (fun _ => fullShare) (adm p).1 : sProp 𝕄) = BI.emp := by
  fin_cases p <;> (unfold Pipeline.prefHeld; rw [show (Finset.univ : Finset (Fin 0)) = ∅ from rfl, BI.bigSep_empty])

/-- The contents `W`, read at a reference. -/
abbrev atRefs (W : Dev nD → Valuation τ sig (Elt F)) : (c : Dev nD) → (b : Ref sig .tc) → Buf (Elt F) ((c : Thread nD τ).loc b) := fun c b => W c b

set_option backward.isDefEq.respectTransparency.types false in
/-- One record per region, from the region's facts: it is entered with the buffers at `Win` and left with them at `Wout`;
    its arrays go in at the proof data's entry contents and come back at the exit contents. -/
def regOf (p : Fin 7) (lf : Pipeline.LaunchFacts (nD := nD) (τ := τ) cfgs p) (Win Wout : Dev nD → Valuation τ sig (Elt F))
    (hbody : ∀ c, BodyObligation (pdats m ρ p c) (defs₀ (F := F)) Variants.none () Set.univ)
    (howed : ∀ c t, (pdats m ρ p c).owed t = 0)
    (hq : ∀ c w, (pdats m ρ p c).q w = fullShare)
    (hA : ∀ c w, (pdats m ρ p c).A w = atRefs Win c (Pipeline.arrRef (Pipeline.pin (pcfgs (F := F)) adm p).spec w))
    (hrec : ∀ c t, (pdats m ρ p c).recorded t = Set.univ)
    (harr : ∀ c w, Wout c (Proc.devRef .tc (Pipeline.arrRef (Pipeline.pin (pcfgs (F := F)) adm p).spec w)) = (pdats m ρ p c).arrAt w (Pipeline.pin (pcfgs (F := F)) adm p).N)
    (hne : ∀ c b, (∀ w, Pipeline.arrRef (Pipeline.pin (pcfgs (F := F)) adm p).spec w ≠ b) → Wout c (Proc.devRef .tc b) = Win c (Proc.devRef .tc b))
    (hin : ∀ c, (Pipeline.ΦA (Pipeline.pin (pcfgs (F := F)) adm p).spec c : sProp 𝕄) ⊢ (pdats m ρ p c).Φ 0)
    (hout : ∀ c, (pdats m ρ p c).Φ (Fin.last (Pipeline.pin (pcfgs (F := F)) adm p).N) ⊢ (Pipeline.ΦA (Pipeline.pin (pcfgs (F := F)) adm p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (atRefs Win c)
  hentry c := by
    rw [Pipeline.ownSems0_none]
    have hsplit := Pipeline.arrays_of_unscopedBufs (p := p) (pcfgs (F := F)) adm (pdats m ρ) lf.win lf.arr_whole c
      ((pdats m ρ p c).share_full fun w => hq c w) (atRefs Win c) fun w => hA c w
    rw [Pipeline.unscopedBufs_held] at hsplit
    have ho : (pdats m ρ p c).owed 0 = 0 := howed c 0
    have hr : (pdats m ρ p c).recorded 0 = Set.univ := hrec c 0
    iintro ⟨⟨Hub, Hp, HO⟩, -, -⟩
    ihave H := hsplit $$ Hub
    icases H with ⟨Ha, Hrest⟩
    imodintro
    isplitl [Ha]; · iexact Ha
    isplitr; · rw [pref_none]; iempintro
    isplitl [HO]
    · unfold Pipeline.Dat.owesAt Pipeline.owesWithin
      rw [ho]
      icases HO with ⟨%W, HO⟩; iexists W; isplitr; · ipureintro; exact fun _ _ => Or.inl (by rw [hr]; trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full fun w => hq c w)
      (atRefs Win c) (atRefs Wout c) ((pdats m ρ p c).arrAt · (Pipeline.pin (pcfgs (F := F)) adm p).N) (fun w => (harr c w).symm)
      (fun b hb => hne c b fun w e => hb (Finset.mem_image.mpr ⟨w, Finset.mem_univ _, e⟩))
    rw [Pipeline.unscopedBufs_held] at hjoin
    have ho : (pdats m ρ p c).owed (Fin.last (Pipeline.pin (pcfgs (F := F)) adm p).N) = 0 := howed c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W1 m ρ) (W2 m ρ) (body_obligation0 (V1 m ρ)) (owed_eq0 (V1 m ρ)) (q_eq0 (V1 m ρ)) (A_eq0 (V1 m ρ))
    (recorded_eq0 (V1 m ρ)) (W2_arr m ρ) (W2_of_ne m ρ) (hin0 (V1 m ρ)) (hout0 (V1 m ρ))

set_option backward.isDefEq.respectTransparency.types false in
def reg1 : Pipeline.RegionSeg (pcfgs (F := F)) adm (pdats m ρ) () defs₀ 𝒱₀ L lv 1 :=
  regOf m ρ 1 launch1 (W3 m ρ) (W4 m ρ) (body_obligation1 (V3 m ρ)) (owed_eq1 (V3 m ρ)) (q_eq1 (V3 m ρ)) (A_eq1 (V3 m ρ))
    (recorded_eq1 (V3 m ρ)) (W4_arr m ρ) (W4_of_ne m ρ) (hin1 (V3 m ρ)) (hout1 (V3 m ρ))

set_option backward.isDefEq.respectTransparency.types false in
def reg2 : Pipeline.RegionSeg (pcfgs (F := F)) adm (pdats m ρ) () defs₀ 𝒱₀ L lv 2 :=
  regOf m ρ 2 launch2 (W4 m ρ) (W5 m ρ) (body_obligation2 (V4 m ρ)) (owed_eq2 (V4 m ρ)) (q_eq2 (V4 m ρ)) (A_eq2 (V4 m ρ))
    (recorded_eq2 (V4 m ρ)) (W5_arr m ρ) (W5_of_ne m ρ) (hin2 (V4 m ρ)) (hout2 (V4 m ρ))

set_option backward.isDefEq.respectTransparency.types false in
def reg3 : Pipeline.RegionSeg (pcfgs (F := F)) adm (pdats m ρ) () defs₀ 𝒱₀ L lv 3 :=
  regOf m ρ 3 launch3 (W6 m ρ) (W7 m ρ) (body_obligation3 (V6 m ρ)) (owed_eq3 (V6 m ρ)) (q_eq3 (V6 m ρ)) (A_eq3 (V6 m ρ))
    (recorded_eq3 (V6 m ρ)) (W7_arr m ρ) (W7_of_ne m ρ) (hin3 (V6 m ρ)) (hout3 (V6 m ρ))

set_option backward.isDefEq.respectTransparency.types false in
def reg4 : Pipeline.RegionSeg (pcfgs (F := F)) adm (pdats m ρ) () defs₀ 𝒱₀ L lv 4 :=
  regOf m ρ 4 launch4 (W7 m ρ) (W8 m ρ) (body_obligation4 (V7 m ρ)) (owed_eq4 (V7 m ρ)) (q_eq4 (V7 m ρ)) (A_eq4 (V7 m ρ))
    (recorded_eq4 (V7 m ρ)) (W8_arr m ρ) (W8_of_ne m ρ) (hin4 (V7 m ρ)) (hout4 (V7 m ρ))

set_option backward.isDefEq.respectTransparency.types false in
def reg5 : Pipeline.RegionSeg (pcfgs (F := F)) adm (pdats m ρ) () defs₀ 𝒱₀ L lv 5 :=
  regOf m ρ 5 launch5 (W9 m ρ) (W10 m ρ) (body_obligation5 (V9 m ρ)) (owed_eq5 (V9 m ρ)) (q_eq5 (V9 m ρ)) (A_eq5 (V9 m ρ))
    (recorded_eq5 (V9 m ρ)) (W10_arr m ρ) (W10_of_ne m ρ) (hin5 (V9 m ρ)) (hout5 (V9 m ρ))

set_option backward.isDefEq.respectTransparency.types false in
def reg6 : Pipeline.RegionSeg (pcfgs (F := F)) adm (pdats m ρ) () defs₀ 𝒱₀ L lv 6 :=
  regOf m ρ 6 launch6 (W10 m ρ) (W11 m ρ) (body_obligation6 (V10 m ρ)) (owed_eq6 (V10 m ρ)) (q_eq6 (V10 m ρ)) (A_eq6 (V10 m ρ))
    (recorded_eq6 (V10 m ρ)) (W11_arr m ρ) (W11_of_ne m ρ) (hin6 (V10 m ρ)) (hout6 (V10 m ρ))

abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .region (reg6 m ρ),
    .host (hseg hostOps7 hostOps7_sub hostOps7_fresh (W11 m ρ)) ]

theorem main_run (c : Dev nD) : main (F := F) c = Pipeline.Seg.run (segs m ρ) :=
  main_segs adm (pdats m ρ) () 𝒱₀ L lv _ _ _ _ _ _ _ _ _ _ _ _ rfl rfl rfl rfl rfl c

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.Kernel.Hand

end
-- ==== Proof.K.Kept.lean ====
import proofs.«151769_j20177756357157_1_alg».proof.Proof.K.RunW
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

theorem W1_keep (c : Dev nD) (b : Ref sig .tc) (hb : b ∉ [main_v0, main_v1, main_v2, main_v3]) :
    W1 m ρ c (Proc.devRef .tc b) = W0 m ρ c (Proc.devRef .tc b) :=
  StableHlo.after_of_writes_sub (W := [main_v0, main_v1, main_v2, main_v3]) hostOps0 (W0 m ρ c) (by
    simp only [hostOps0, List.Forall, StableHlo.reshape_writes, Finset.singleton_subset_iff, List.mem_toFinset, List.map_cons,
      List.map_nil, List.mem_cons, List.not_mem_nil, or_false, true_or, or_true, and_self]) hb

theorem W3_keep (c : Dev nD) (b : Ref sig .tc) (hb : b ∉ [main_v5]) :
    W3 m ρ c (Proc.devRef .tc b) = W2 m ρ c (Proc.devRef .tc b) :=
  StableHlo.after_of_writes_sub (W := [main_v5]) hostOps1 (W2 m ρ c) (by
    simp only [hostOps1, List.Forall, StableHlo.reshape_writes, Finset.singleton_subset_iff, List.mem_toFinset, List.map_cons,
      List.map_nil, List.mem_cons, List.not_mem_nil, or_false, true_or, or_true, and_self]) hb

theorem W6_keep (c : Dev nD) (b : Ref sig .tc) (hb : b ∉ [main_v8, main_v9]) :
    W6 m ρ c (Proc.devRef .tc b) = W5 m ρ c (Proc.devRef .tc b) :=
  StableHlo.after_of_writes_sub (W := [main_v8, main_v9]) hostOps3 (W5 m ρ c) (by
    simp only [hostOps3, List.Forall, StableHlo.reshape_writes, Finset.singleton_subset_iff, List.mem_toFinset, List.map_cons,
      List.map_nil, List.mem_cons, List.not_mem_nil, or_false, true_or, or_true, and_self]) hb

theorem W9_keep (c : Dev nD) (b : Ref sig .tc) (hb : b ∉ [main_v12, main_v13]) :
    W9 m ρ c (Proc.devRef .tc b) = W8 m ρ c (Proc.devRef .tc b) :=
  StableHlo.after_of_writes_sub (W := [main_v12, main_v13]) hostOps5 (W8 m ρ c) (by
    simp only [hostOps5, List.Forall, StableHlo.reshape_writes, Finset.singleton_subset_iff, List.mem_toFinset, List.map_cons,
      List.map_nil, List.mem_cons, List.not_mem_nil, or_false, true_or, or_true, and_self]) hb

theorem W12_keep (c : Dev nD) (b : Ref sig .tc) (hb : b ∉ [main_v16]) :
    W12 m ρ c (Proc.devRef .tc b) = W11 m ρ c (Proc.devRef .tc b) :=
  StableHlo.after_of_writes_sub (W := [main_v16]) hostOps7 (W11 m ρ c) (by
    simp only [hostOps7, List.Forall, StableHlo.reshape_writes, Finset.singleton_subset_iff, List.mem_toFinset, List.map_cons,
      List.map_nil, List.mem_cons, List.not_mem_nil, or_false, true_or, or_true, and_self]) hb

theorem W4_main_arg4 (c : Dev nD) : W4 m ρ c (Proc.devRef .tc main_arg4) = W3 m ρ c (Proc.devRef .tc main_arg4) :=
  (W4_arr m ρ c 1).trans (((dat1 (V3 m ρ) c).arrAt_in 1 rfl _).trans (A_eq1 (V3 m ρ) c 1))

theorem W5_main_arg5 (c : Dev nD) : W5 m ρ c (Proc.devRef .tc main_arg5) = W4 m ρ c (Proc.devRef .tc main_arg5) :=
  (W5_arr m ρ c 1).trans (((dat2 (V4 m ρ) c).arrAt_in 1 rfl _).trans (A_eq2 (V4 m ρ) c 1))

theorem W7_main_arg6 (c : Dev nD) : W7 m ρ c (Proc.devRef .tc main_arg6) = W6 m ρ c (Proc.devRef .tc main_arg6) :=
  (W7_arr m ρ c 1).trans (((dat3 (V6 m ρ) c).arrAt_in 1 rfl _).trans (A_eq3 (V6 m ρ) c 1))

theorem W8_main_arg7 (c : Dev nD) : W8 m ρ c (Proc.devRef .tc main_arg7) = W7 m ρ c (Proc.devRef .tc main_arg7) :=
  (W8_arr m ρ c 1).trans (((dat4 (V7 m ρ) c).arrAt_in 1 rfl _).trans (A_eq4 (V7 m ρ) c 1))

theorem W10_main_arg8 (c : Dev nD) : W10 m ρ c (Proc.devRef .tc main_arg8) = W9 m ρ c (Proc.devRef .tc main_arg8) :=
  (W10_arr m ρ c 1).trans (((dat5 (V9 m ρ) c).arrAt_in 1 rfl _).trans (A_eq5 (V9 m ρ) c 1))

theorem W11_main_arg9 (c : Dev nD) : W11 m ρ c (Proc.devRef .tc main_arg9) = W10 m ρ c (Proc.devRef .tc main_arg9) :=
  (W11_arr m ρ c 1).trans (((dat6 (V10 m ρ) c).arrAt_in 1 rfl _).trans (A_eq6 (V10 m ρ) c 1))

/-- The ten arguments of @main. -/
abbrev args : List (Ref sig .tc) :=
  [main_arg0, main_arg1, main_arg2, main_arg3, main_arg4, main_arg5, main_arg6, main_arg7, main_arg8, main_arg9]

variable (c : Dev nD) (b : Ref sig .tc) (hb : b ∈ args)
include hb

/-- After each of the twelve items an argument still holds the launch memory's contents: no host stretch writes an argument, and
    a region either does not touch it or reads it through an input window, whose array it leaves as entered. -/
theorem W1_arg : W1 m ρ c (Proc.devRef .tc b) = m ((c : Thread nD τ).loc b) := by
  simp only [args, List.mem_cons, List.not_mem_nil, or_false] at hb
  rcases hb with rfl | rfl | rfl | rfl | rfl | rfl | rfl | rfl | rfl | rfl <;> exact W1_keep m ρ c _ (by decide)
theorem W2_arg : W2 m ρ c (Proc.devRef .tc b) = m ((c : Thread nD τ).loc b) := by
  refine .trans ?_ (W1_arg m ρ c b hb)
  simp only [args, List.mem_cons, List.not_mem_nil, or_false] at hb
  rcases hb with rfl | rfl | rfl | rfl | rfl | rfl | rfl | rfl | rfl | rfl <;> exact W2_of_ne m ρ c _ (by decide)
theorem W3_arg : W3 m ρ c (Proc.devRef .tc b) = m ((c : Thread nD τ).loc b) := by
  refine .trans ?_ (W2_arg m ρ c b hb)
  simp only [args, List.mem_cons, List.not_mem_nil, or_false] at hb
  rcases hb with rfl | rfl | rfl | rfl | rfl | rfl | rfl | rfl | rfl | rfl <;> exact W3_keep m ρ c _ (by decide)
theorem W4_arg : W4 m ρ c (Proc.devRef .tc b) = m ((c : Thread nD τ).loc b) := by
  refine .trans ?_ (W3_arg m ρ c b hb)
  simp only [args, List.mem_cons, List.not_mem_nil, or_false] at hb
  rcases hb with rfl | rfl | rfl | rfl | rfl | rfl | rfl | rfl | rfl | rfl <;> first | exact W4_main_arg4 m ρ c | exact W4_of_ne m ρ c _ (by decide)
theorem W5_arg : W5 m ρ c (Proc.devRef .tc b) = m ((c : Thread nD τ).loc b) := by
  refine .trans ?_ (W4_arg m ρ c b hb)
  simp only [args, List.mem_cons, List.not_mem_nil, or_false] at hb
  rcases hb with rfl | rfl | rfl | rfl | rfl | rfl | rfl | rfl | rfl | rfl <;> first | exact W5_main_arg5 m ρ c | exact W5_of_ne m ρ c _ (by decide)
theorem W6_arg : W6 m ρ c (Proc.devRef .tc b) = m ((c : Thread nD τ).loc b) := by
  refine .trans ?_ (W5_arg m ρ c b hb)
  simp only [args, List.mem_cons, List.not_mem_nil, or_false] at hb
  rcases hb with rfl | rfl | rfl | rfl | rfl | rfl | rfl | rfl | rfl | rfl <;> exact W6_keep m ρ c _ (by decide)
theorem W7_arg : W7 m ρ c (Proc.devRef .tc b) = m ((c : Thread nD τ).loc b) := by
  refine .trans ?_ (W6_arg m ρ c b hb)
  simp only [args, List.mem_cons, List.not_mem_nil, or_false] at hb
  rcases hb with rfl | rfl | rfl | rfl | rfl | rfl | rfl | rfl | rfl | rfl <;> first | exact W7_main_arg6 m ρ c | exact W7_of_ne m ρ c _ (by decide)
theorem W8_arg : W8 m ρ c (Proc.devRef .tc b) = m ((c : Thread nD τ).loc b) := by
  refine .trans ?_ (W7_arg m ρ c b hb)
  simp only [args, List.mem_cons, List.not_mem_nil, or_false] at hb
  rcases hb with rfl | rfl | rfl | rfl | rfl | rfl | rfl | rfl | rfl | rfl <;> first | exact W8_main_arg7 m ρ c | exact W8_of_ne m ρ c _ (by decide)
theorem W9_arg : W9 m ρ c (Proc.devRef .tc b) = m ((c : Thread nD τ).loc b) := by
  refine .trans ?_ (W8_arg m ρ c b hb)
  simp only [args, List.mem_cons, List.not_mem_nil, or_false] at hb
  rcases hb with rfl | rfl | rfl | rfl | rfl | rfl | rfl | rfl | rfl | rfl <;> exact W9_keep m ρ c _ (by decide)
theorem W10_arg : W10 m ρ c (Proc.devRef .tc b) = m ((c : Thread nD τ).loc b) := by
  refine .trans ?_ (W9_arg m ρ c b hb)
  simp only [args, List.mem_cons, List.not_mem_nil, or_false] at hb
  rcases hb with rfl | rfl | rfl | rfl | rfl | rfl | rfl | rfl | rfl | rfl <;> first | exact W10_main_arg8 m ρ c | exact W10_of_ne m ρ c _ (by decide)
theorem W11_arg : W11 m ρ c (Proc.devRef .tc b) = m ((c : Thread nD τ).loc b) := by
  refine .trans ?_ (W10_arg m ρ c b hb)
  simp only [args, List.mem_cons, List.not_mem_nil, or_false] at hb
  rcases hb with rfl | rfl | rfl | rfl | rfl | rfl | rfl | rfl | rfl | rfl <;> first | exact W11_main_arg9 m ρ c | exact W11_of_ne m ρ c _ (by decide)
theorem W12_arg : W12 m ρ c (Proc.devRef .tc b) = m ((c : Thread nD τ).loc b) := by
  refine .trans ?_ (W11_arg m ρ c b hb)
  simp only [args, List.mem_cons, List.not_mem_nil, or_false] at hb
  rcases hb with rfl | rfl | rfl | rfl | rfl | rfl | rfl | rfl | rfl | rfl <;> exact W12_keep m ρ c _ (by decide)

end Cert.Kernel.Hand

end
-- ==== Proof.KI.Reg0.lean ====
import proofs.«151769_j20177756357157_1_alg».proof.Proof.Gen.KernelIdeal.Launch
import proofs.«151769_j20177756357157_1_alg».proof.Proof.Gen.KernelIdeal.Skeleton
import proofs.«151769_j20177756357157_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rA0 : Rect S64x256 := Rect.unit (s := S64x256) ![0, 0] S64x256.size inb_S64x256_S64x256_0_0
abbrev rB0 : Rect S64x64 := Rect.unit (s := S64x64) ![0, 0] S64x64.size inb_S64x64_S64x64_0_0

def out0_4 (x0 : Vec F S64x256 .f32) (x1 : Vec F S64x64 .f32) : Vec F S64x64 .f32 :=
  View.canon [⟨rB0, k0_pay2 (View.ld x0 rA0) (View.ld x1 rB0)⟩]

def out0_5 (x0 : Vec F S64x256 .f32) (x2 : Vec F S64x64 .f32) : Vec F S64x64 .f32 :=
  View.canon [⟨rB0, k0_pay3 (View.ld x0 rA0) (View.ld x2 rB0)⟩]

def out0_6 (x0 : Vec F S64x256 .f32) (x3 : Vec F S64x64 .f32) : Vec F S64x64 .f32 :=
  View.canon [⟨rB0, k0_pay4 (View.ld x0 rA0) (View.ld x3 rB0)⟩]

theorem cover0_B (p0 : Vec F S64x64 .f32) (y : S64x64.Idx) :
    ∃ pc ∈ ([⟨rB0, p0⟩] : List (View.Piece (Elt F) S64x64 .f32)), y ∈ pc.1.set :=
  View.cover_of_tiled [⟨rB0, p0⟩] S64x64.size (by rfl) y

set_option maxHeartbeats 4000000 in

theorem sound_kernel0 (c : Dev nD) (E : Set ℕ) (i : grid0.Coords)
    (arg1 : Memref sig .tc .vmem S64x256 .f32) (harg1 : arg1.IsWhole) (arg2 : Memref sig .tc .vmem S64x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64x64 .f32) (harg6 : arg6.IsWhole)
    (arg7 : Memref sig .tc .vmem S64x64 .f32) (harg7 : arg7.IsWhole)
    (x0 : Vec F S64x256 .f32) (x1 x2 x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__dist_kernel i arg1 harg1 arg2 harg2 arg3 harg3 arg4 harg4 arg5 harg5 arg6 harg6 arg7 harg7) K := by
  simp only [cc0__dist_kernel_eq_skeleton]; unfold cc0__dist_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_B _)
  isplitl [H5]
  · iexists _; isplitr
    swap; · iexact H5
    ipureintro
    exact View.read_writes_eq_canon _ _ _ (cover0_B _)
  iexists _; isplitr
  swap; · iexact H6
  ipureintro
  exact View.read_writes_eq_canon _ _ _ (cover0_B _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  show (Pipeline.ΦA spec0 c : sProp 𝕄) ⊢ Pipeline.ΦA spec0 c
  exact .rfl

theorem hout0 (c : Dev nD) : (dat0 V c).Φ (Fin.last cfg0.N) ⊢ (Pipeline.ΦA spec0 c : sProp 𝕄) := by
  show (Pipeline.ΦA spec0 c : sProp 𝕄) ⊢ Pipeline.ΦA spec0 c
  exact .rfl

theorem recorded_eq0 (c : Dev nD) (t : Fin (cfg0.N + 1)) : (dat0 V c).recorded t = Set.univ := rfl

end Cert.KernelIdeal.Hand

end
-- ==== Proof.KI.MvRunA.lean ====
import proofs.«151769_j20177756357157_1_alg».proof.Proof.Gen.KernelIdeal.Launch
import proofs.«151769_j20177756357157_1_alg».proof.Proof.Gen.KernelIdeal.Skeleton
import proofs.«151769_j20177756357157_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The matrix-vector kernel: all six calls run this one function. -/
abbrev mvKernel := cc1__matvec_relu_kernel (F := F)

/-- The first row tile of a column tile (kk = 0): the accumulator is reset. -/
abbrev mvFirst (i : grid1.Coords) : Prop := (Scalar.cmpi .ne (Scalar.extui (Scalar.cmpi .eq (BitVec.ofNat 32 (i 1).val) 0#32)) 0#32) = 1#1
/-- The last row tile (kk = 3): the clamped accumulator is stored to the output tile. -/
abbrev mvLast (i : grid1.Coords) : Prop := k1_cond2 i = 1#1

set_option maxHeartbeats 4000000 in
/-- A first row tile: the accumulator is reset and the first partial product added; the output tile is untouched. -/
noncomputable def mvRunA (c : Dev nD) (i : grid1.Coords) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (hc0 : mvFirst i) (hc1 : ¬mvLast i)
    (x0 : Vec F S1x1024 .f32) (x1 : Vec F S1024x1024 .f32) :
    Σ' (L2 : List (View.Piece (Elt F) S1x1024 .f32)), { LS0 : List (View.Piece (Elt F) S1x1024 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matvec_relu_kernel i arg2 harg2 arg3 harg3 arg4 harg4 arg5 harg5) K } := by
  refine ⟨[], ?_, fun xi2 E K => ?run⟩
  case run =>
    simp only [cc1__matvec_relu_kernel_eq_skeleton]; unfold cc1__matvec_relu_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.MvRunB.lean ====
import proofs.«151769_j20177756357157_1_alg».proof.Proof.KI.MvRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- A middle row tile: one more partial product is added to the accumulator `xs0`. -/
noncomputable def mvRunB (c : Dev nD) (i : grid1.Coords) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (hc0 : ¬mvFirst i) (hc1 : ¬mvLast i)
    (x0 : Vec F S1x1024 .f32) (x1 : Vec F S1024x1024 .f32) (xs0 : Vec F S1x1024 .f32) :
    Σ' (L2 : List (View.Piece (Elt F) S1x1024 .f32)), { LS0 : List (View.Piece (Elt F) S1x1024 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matvec_relu_kernel i arg2 harg2 arg3 harg3 arg4 harg4 arg5 harg5) K } := by
  refine ⟨[], ?_, fun xi2 E K => ?run⟩
  case run =>
    simp only [cc1__matvec_relu_kernel_eq_skeleton]; unfold cc1__matvec_relu_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KI.MvRunC.lean ====
import proofs.«151769_j20177756357157_1_alg».proof.Proof.KI.MvRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- A last row tile: the last partial product is added, and the accumulator clamped below at zero goes to the output tile. -/
noncomputable def mvRunC (c : Dev nD) (i : grid1.Coords) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole) (hc0 : ¬mvFirst i) (hc1 : mvLast i)
    (x0 : Vec F S1x1024 .f32) (x1 : Vec F S1024x1024 .f32) (xs0 : Vec F S1x1024 .f32) :
    Σ' (L2 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__matvec_relu_kernel i arg2 harg2 arg3 harg3 arg4 harg4 arg5 harg5) K } := by
  refine ⟨?_, ?_, fun E K => ?run⟩
  case run =>
    simp only [cc1__matvec_relu_kernel_eq_skeleton]; unfold cc1__matvec_relu_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KI.MvCall.lean ====
import proofs.«151769_j20177756357157_1_alg».proof.Proof.KI.MvRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A whole buffer of a tile's shape, through which the contents a list of stores leaves are stated. -/
abbrev mvTile : View sig .tc .vmem S1x1024 .f32 := (Memref.whole cc1_scratch0 : Memref sig .tc .vmem S1x1024 .f32).view

/-- What the stores `L` leave in a tile-shaped buffer they cover. -/
def mvLeft (L : List (View.Piece (Elt F) S1x1024 .f32)) : Vec F S1x1024 .f32 :=
  mvTile.read (Elt F) (mvTile.writes (Elt F) mvTile.junk L)

variable (c : Dev nD) (i : grid1.Coords) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole)

section first
variable (hc0 : mvFirst i) (hc1 : ¬mvLast i) (x0 : Vec F S1x1024 .f32) (x1 : Vec F S1024x1024 .f32)

/-- The output tile (nothing stored: nothing reads it) and the accumulator after a first row tile. -/
def mvStepA : Vec F S1x1024 .f32 × Vec F S1x1024 .f32 :=
  (mvLeft (mvRunA c i arg2 harg2 arg3 harg3 arg4 harg4 arg5 harg5 hc0 hc1 x0 x1).1, mvLeft (mvRunA c i arg2 harg2 arg3 harg3 arg4 harg4 arg5 harg5 hc0 hc1 x0 x1).2.1)
theorem mvAccA_cover (y : S1x1024.Idx) : ∃ pc ∈ (mvRunA c i arg2 harg2 arg3 harg3 arg4 harg4 arg5 harg5 hc0 hc1 x0 x1).2.1, y ∈ pc.1.set :=
  View.cover_of_tiledL _ S1x1024.size (by sl_kernel_rfl) y
end first

section middle
variable (hc0 : ¬mvFirst i) (hc1 : ¬mvLast i) (x0 : Vec F S1x1024 .f32) (x1 : Vec F S1024x1024 .f32) (xs0 : Vec F S1x1024 .f32)

/-- The output tile (untouched) and the accumulator after a middle row tile. -/
def mvStepB : Vec F S1x1024 .f32 × Vec F S1x1024 .f32 :=
  (mvLeft (mvRunB c i arg2 harg2 arg3 harg3 arg4 harg4 arg5 harg5 hc0 hc1 x0 x1 xs0).1, mvLeft (mvRunB c i arg2 harg2 arg3 harg3 arg4 harg4 arg5 harg5 hc0 hc1 x0 x1 xs0).2.1)
theorem mvAccB_cover (y : S1x1024.Idx) : ∃ pc ∈ (mvRunB c i arg2 harg2 arg3 harg3 arg4 harg4 arg5 harg5 hc0 hc1 x0 x1 xs0).2.1, y ∈ pc.1.set :=
  View.cover_of_tiledL _ S1x1024.size (by sl_kernel_rfl) y
end middle

section last
variable (hc0 : ¬mvFirst i) (hc1 : mvLast i) (x0 : Vec F S1x1024 .f32) (x1 : Vec F S1024x1024 .f32) (xs0 : Vec F S1x1024 .f32)

/-- The output tile and the accumulator after a last row tile. -/
def mvStepC : Vec F S1x1024 .f32 × Vec F S1x1024 .f32 :=
  (mvLeft (mvRunC c i arg2 harg2 arg3 harg3 arg4 harg4 arg5 harg5 hc0 hc1 x0 x1 xs0).1, mvLeft (mvRunC c i arg2 harg2 arg3 harg3 arg4 harg4 arg5 harg5 hc0 hc1 x0 x1 xs0).2.1)
theorem mvOutC_cover (y : S1x1024.Idx) : ∃ pc ∈ (mvRunC c i arg2 harg2 arg3 harg3 arg4 harg4 arg5 harg5 hc0 hc1 x0 x1 xs0).1, y ∈ pc.1.set :=
  View.cover_of_tiledL _ S1x1024.size (by sl_kernel_rfl) y
theorem mvAccC_cover (y : S1x1024.Idx) : ∃ pc ∈ (mvRunC c i arg2 harg2 arg3 harg3 arg4 harg4 arg5 harg5 hc0 hc1 x0 x1 xs0).2.1, y ∈ pc.1.set :=
  View.cover_of_tiledL _ S1x1024.size (by sl_kernel_rfl) y
end last

end Cert.KernelIdeal.Hand

end
-- ==== Proof.KI.MvPoint.lean ====
import proofs.«151769_j20177756357157_1_alg».proof.Proof.KI.MvCall

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What a region hands the kernel at each of its sixteen positions n = 4 · (column tile) + (row tile): the grid
    coordinates, with the two facts that place the position among the row tiles, the four operands, and the two input tiles. -/
structure MvOps (F : FTy → Type) [FloatOps F] where
  i : (n : ℕ) → n < 16 → grid1.Coords
  first : ∀ n hn, mvFirst (i n hn) ↔ n % 4 = 0
  last : ∀ n hn, mvLast (i n hn) ↔ n % 4 = 3
  a2 : (n : ℕ) → n < 16 → Memref sig .tc .vmem S1x1024 .f32
  h2 : ∀ n hn, (a2 n hn).IsWhole
  a3 : (n : ℕ) → n < 16 → Memref sig .tc .vmem S1024x1024 .f32
  h3 : ∀ n hn, (a3 n hn).IsWhole
  a4 : (n : ℕ) → n < 16 → Memref sig .tc .vmem S1x1024 .f32
  h4 : ∀ n hn, (a4 n hn).IsWhole
  acc : Memref sig .tc .vmem S1x1024 .f32
  hacc : acc.IsWhole
  x0 : (n : ℕ) → n < 16 → Vec F S1x1024 .f32
  x1 : (n : ℕ) → n < 16 → Vec F S1024x1024 .f32

variable (o : MvOps F) (c : Dev nD)

def mvAtA (n : ℕ) (hn : n < 16) (h0 : n % 4 = 0) : Vec F S1x1024 .f32 × Vec F S1x1024 .f32 :=
  mvStepA c (o.i n hn) (o.a2 n hn) (o.h2 n hn) (o.a3 n hn) (o.h3 n hn) (o.a4 n hn) (o.h4 n hn) o.acc o.hacc ((o.first n hn).mpr h0) (fun h => by have := (o.last n hn).mp h; omega) (o.x0 n hn) (o.x1 n hn)
def mvAtB (n : ℕ) (hn : n < 16) (h0 : ¬n % 4 = 0) (h1 : ¬n % 4 = 3) (xs0 : Vec F S1x1024 .f32) : Vec F S1x1024 .f32 × Vec F S1x1024 .f32 :=
  mvStepB c (o.i n hn) (o.a2 n hn) (o.h2 n hn) (o.a3 n hn) (o.h3 n hn) (o.a4 n hn) (o.h4 n hn) o.acc o.hacc (fun h => h0 ((o.first n hn).mp h)) (fun h => h1 ((o.last n hn).mp h)) (o.x0 n hn) (o.x1 n hn) xs0
def mvAtC (n : ℕ) (hn : n < 16) (h0 : ¬n % 4 = 0) (h1 : n % 4 = 3) (xs0 : Vec F S1x1024 .f32) : Vec F S1x1024 .f32 × Vec F S1x1024 .f32 :=
  mvStepC c (o.i n hn) (o.a2 n hn) (o.h2 n hn) (o.a3 n hn) (o.h3 n hn) (o.a4 n hn) (o.h4 n hn) o.acc o.hacc (fun h => h0 ((o.first n hn).mp h)) ((o.last n hn).mpr h1) (o.x0 n hn) (o.x1 n hn) xs0

/-- The output tile and the accumulator after position n: the case of n % 4 on the position's tiles, the accumulator taken
    from position n - 1 except at a reset. -/
def mvOutsAt : (n : ℕ) → n < 16 → Vec F S1x1024 .f32 × Vec F S1x1024 .f32
  | 0, hn => mvAtA o c 0 hn (Nat.zero_mod _)
  | n + 1, hn =>
    if h0 : (n + 1) % 4 = 0 then mvAtA o c (n + 1) hn h0
    else if h1 : (n + 1) % 4 = 3 then mvAtC o c (n + 1) hn h0 h1 (mvOutsAt n (Nat.lt_of_succ_lt hn)).2
    else mvAtB o c (n + 1) hn h0 h1 (mvOutsAt n (Nat.lt_of_succ_lt hn)).2

theorem mvOutsAt_A (n : ℕ) (hn : n < 16) (h0 : n % 4 = 0) : mvOutsAt o c n hn = mvAtA o c n hn h0 := by
  cases n with
  | zero => rfl
  | succ n => exact dif_pos h0

theorem mvOutsAt_B (n : ℕ) (hn : n < 16) (h0 : ¬n % 4 = 0) (h1 : ¬n % 4 = 3) :
    mvOutsAt o c n hn = mvAtB o c n hn h0 h1 (mvOutsAt o c (n - 1) (Nat.lt_of_le_of_lt (Nat.sub_le _ _) hn)).2 := by
  cases n with
  | zero => exact absurd (Nat.zero_mod _) h0
  | succ n => exact (dif_neg h0).trans (dif_neg h1)

theorem mvOutsAt_C (n : ℕ) (hn : n < 16) (h0 : ¬n % 4 = 0) (h1 : n % 4 = 3) :
    mvOutsAt o c n hn = mvAtC o c n hn h0 h1 (mvOutsAt o c (n - 1) (Nat.lt_of_le_of_lt (Nat.sub_le _ _) hn)).2 := by
  cases n with
  | zero => exact absurd (Nat.zero_mod _) h0
  | succ n => exact (dif_neg h0).trans (dif_pos h1)

/-- The invariant before position n: the accumulator holds anything at the start and afterwards what the position before
    left; `Rest` stands for everything else the region keeps. -/
def mvPhi (Rest : sProp 𝕄) : (n : ℕ) → n ≤ 16 → sProp 𝕄
  | 0, _ => iprop(iprop(iprop(∃ d, owns (c : Thread nD τ) o.acc fullShare d) ∗ Rest) ∗ (∃ r, prngReg c r))
  | n + 1, hn => iprop(iprop(owns (c : Thread nD τ) o.acc fullShare (mvOutsAt o c n hn).2 ∗ Rest) ∗ (∃ r, prngReg c r))

theorem mvPhi_pos (Rest : sProp 𝕄) (n : ℕ) (h : n ≤ 16) (hz : n ≠ 0) :
    mvPhi o c Rest n h = iprop(iprop(owns (c : Thread nD τ) o.acc fullShare (mvOutsAt o c (n - 1) (by omega)).2 ∗ Rest) ∗ (∃ r, prngReg c r)) := by
  cases n with
  | zero => exact absurd rfl hz
  | succ n => rfl

/-- At any position the invariant gives back the one of the start: the accumulator's contents are forgotten. -/
theorem mvPhi_start (Rest : sProp 𝕄) (n : ℕ) (h : n ≤ 16) : mvPhi o c Rest n h ⊢ mvPhi o c Rest 0 (Nat.zero_le _) := by
  cases n with
  | zero => exact Idealize.SL.BI.Entails.refl _
  | succ n =>
    show iprop(iprop(owns (c : Thread nD τ) o.acc fullShare (mvOutsAt o c n h).2 ∗ Rest) ∗ (∃ r, prngReg c r)) ⊢ iprop(iprop(iprop(∃ d, owns (c : Thread nD τ) o.acc fullShare d) ∗ Rest) ∗ (∃ r, prngReg c r))
    iintro ⟨⟨HS0, Hrest⟩, Hg⟩
    isplitl [HS0 Hrest]
    · isplitl [HS0]
      · iexists _; iexact HS0
      iexact Hrest
    iexact Hg

set_option maxHeartbeats 8000000 in
/-- A position that is not a last row tile: the kernel moves the invariant on and hands the two input tiles back; the
    output tile's buffer comes back at anything. -/
theorem mvPoint (Rest : sProp 𝕄) (n : ℕ) (hn : n < 16) (h1 : ¬n % 4 = 3) (Own Q : sProp 𝕄) (d2 : Vec F S1x1024 .f32)
    (hQ : owns (c : Thread nD τ) (o.a4 n hn) fullShare d2 ⊢ Q) :
    iprop(mvPhi o c Rest n (Nat.le_of_lt hn) ∗ Own ∗ owns (c : Thread nD τ) (o.a2 n hn) fullShare (o.x0 n hn) ∗ owns (c : Thread nD τ) (o.a3 n hn) fullShare (o.x1 n hn) ∗ owns (c : Thread nD τ) (o.a4 n hn) fullShare d2)
      ⊢ wp frame (wpE (defs₀ (F := F)) Variants.none c none) Set.univ (mvKernel (o.i n hn) (o.a2 n hn) (o.h2 n hn) (o.a3 n hn) (o.h3 n hn) (o.a4 n hn) (o.h4 n hn) o.acc o.hacc)
          (fun _ => iprop(mvPhi o c Rest (n + 1) hn ∗ Own ∗ owns (c : Thread nD τ) (o.a2 n hn) fullShare (o.x0 n hn) ∗ owns (c : Thread nD τ) (o.a3 n hn) fullShare (o.x1 n hn) ∗ Q)) := by
  rw [show mvPhi o c Rest (n + 1) hn = iprop(iprop(owns (c : Thread nD τ) o.acc fullShare (mvOutsAt o c n hn).2 ∗ Rest) ∗ (∃ r, prngReg c r)) from rfl]
  by_cases h0 : n % 4 = 0
  · rw [mvOutsAt_A o c n hn h0]
    unfold mvAtA mvStepA mvLeft; (try dsimp only)
    by_cases hz : n = 0
    · subst hz
      rw [show mvPhi o c Rest 0 (Nat.le_of_lt hn) = iprop(iprop(iprop(∃ d, owns (c : Thread nD τ) o.acc fullShare d) ∗ Rest) ∗ (∃ r, prngReg c r)) from rfl]
      iintro ⟨⟨⟨HS0, Hrest⟩, Hg⟩, Ho, H0, H1, H2⟩
      iapply ((mvRunA c _ _ _ _ _ _ _ _ _ ((o.first 0 hn).mpr h0) (fun h => by have := (o.last 0 hn).mp h; omega) (o.x0 0 hn) (o.x1 0 hn)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (mvAccA_cover c _ _ _ _ _ _ _ _ _ _ _ _ _)
          iexact Hrest
        iexact Hg
      isplitl [Ho]; · iexact Ho
      isplitl [H0]; · iexact H0
      isplitl [H1]; · iexact H1
      iapply hQ; iexact H2
    · rw [mvPhi_pos o c Rest n _ hz]
      iintro ⟨⟨⟨HS0, Hrest⟩, Hg⟩, Ho, H0, H1, H2⟩
      iapply ((mvRunA c _ _ _ _ _ _ _ _ _ ((o.first n hn).mpr h0) (fun h => by have := (o.last n hn).mp h; omega) (o.x0 n hn) (o.x1 n hn)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (mvAccA_cover c _ _ _ _ _ _ _ _ _ _ _ _ _)
          iexact Hrest
        iexact Hg
      isplitl [Ho]; · iexact Ho
      isplitl [H0]; · iexact H0
      isplitl [H1]; · iexact H1
      iapply hQ; iexact H2
  · rw [mvOutsAt_B o c n hn h0 h1]
    unfold mvAtB mvStepB mvLeft; (try dsimp only)
    have hz : n ≠ 0 := by omega
    rw [mvPhi_pos o c Rest n _ hz]
    iintro ⟨⟨⟨HS0, Hrest⟩, Hg⟩, Ho, H0, H1, H2⟩
    iapply ((mvRunB c _ _ _ _ _ _ _ _ _ (fun h => h0 ((o.first n hn).mp h)) (fun h => h1 ((o.last n hn).mp h)) (o.x0 n hn) (o.x1 n hn) _).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (mvAccB_cover c _ _ _ _ _ _ _ _ _ _ _ _ _ _)
        iexact Hrest
      iexact Hg
    isplitl [Ho]; · iexact Ho
    isplitl [H0]; · iexact H0
    isplitl [H1]; · iexact H1
    iapply hQ; iexact H2

set_option maxHeartbeats 8000000 in
/-- A last row tile: the same, and the output tile's buffer comes back at the clamped accumulator. -/
theorem mvPointLast (Rest : sProp 𝕄) (n : ℕ) (hn : n < 16) (h1 : n % 4 = 3) (Own : sProp 𝕄) :
    iprop(mvPhi o c Rest n (Nat.le_of_lt hn) ∗ Own ∗ owns (c : Thread nD τ) (o.a2 n hn) fullShare (o.x0 n hn) ∗ owns (c : Thread nD τ) (o.a3 n hn) fullShare (o.x1 n hn) ∗ ∃ d, owns (c : Thread nD τ) (o.a4 n hn) fullShare d)
      ⊢ wp frame (wpE (defs₀ (F := F)) Variants.none c none) Set.univ (mvKernel (o.i n hn) (o.a2 n hn) (o.h2 n hn) (o.a3 n hn) (o.h3 n hn) (o.a4 n hn) (o.h4 n hn) o.acc o.hacc)
          (fun _ => iprop(mvPhi o c Rest (n + 1) hn ∗ Own ∗ owns (c : Thread nD τ) (o.a2 n hn) fullShare (o.x0 n hn) ∗ owns (c : Thread nD τ) (o.a3 n hn) fullShare (o.x1 n hn) ∗ owns (c : Thread nD τ) (o.a4 n hn) fullShare (mvOutsAt o c n hn).1)) := by
  rw [show mvPhi o c Rest (n + 1) hn = iprop(iprop(owns (c : Thread nD τ) o.acc fullShare (mvOutsAt o c n hn).2 ∗ Rest) ∗ (∃ r, prngReg c r)) from rfl]
  have h0 : ¬n % 4 = 0 := by omega
  have hz : n ≠ 0 := by omega
  rw [mvOutsAt_C o c n hn h0 h1]
  unfold mvAtC mvStepC mvLeft; (try dsimp only)
  rw [mvPhi_pos o c Rest n _ hz]
  iintro ⟨⟨⟨HS0, Hrest⟩, Hg⟩, Ho, H0, H1, H2⟩
  iapply ((mvRunC c _ _ _ _ _ _ _ _ _ (fun h => h0 ((o.first n hn).mp h)) ((o.last n hn).mpr h1) (o.x0 n hn) (o.x1 n hn) _).2.2 Set.univ _)
  isplitl [H0]; · iexact H0
  isplitl [H1]; · iexact H1
  isplitl [H2]; · iexact H2
  isplitl [HS0]; · iexact HS0
  iintro ⟨H0, H1, ⟨%e2, H2⟩, ⟨%es0, HS0⟩⟩
  isplitl [HS0 Hrest Hg]
  · isplitl [HS0 Hrest]
    · isplitl [HS0]
      · unfold owns; iexists _; isplitr
        swap; · iexact HS0
        ipureintro; exact View.read_writes_of_cover _ _ _ _ _ (mvAccC_cover c _ _ _ _ _ _ _ _ _ _ _ _ _ _)
      iexact Hrest
    iexact Hg
  isplitl [Ho]; · iexact Ho
  isplitl [H0]; · iexact H0
  isplitl [H1]; · iexact H1
  unfold owns; iexists _; isplitr
  swap; · iexact H2
  ipureintro; exact View.read_writes_of_cover _ _ _ _ _ (mvOutC_cover c _ _ _ _ _ _ _ _ _ _ _ _ _ _)

end Cert.KernelIdeal.Hand

end
-- ==== Proof.KI.Reg1Runs.lean ====
import proofs.«151769_j20177756357157_1_alg».proof.Proof.KI.MvPoint

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hcond1_0 : ∀ t : Fin cfg1.N, mvFirst (grid1.coords t) ↔ t.val % 4 = 0 :=
  (by decide +kernel : ∀ t : Fin grid1.N, mvFirst (grid1.coords t) ↔ t.val % 4 = 0)

theorem hcond1_1 : ∀ t : Fin cfg1.N, mvLast (grid1.coords t) ↔ t.val % 4 = 3 :=
  (by decide +kernel : ∀ t : Fin grid1.N, mvLast (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬mvLast (grid1.coords t) → cfg1.idle 2 (grid1.coords t) = true := by decide +kernel
theorem noFlush1_2 : ∀ t : Fin cfg1.N, ¬mvLast (grid1.coords t) → (cfg1.win 2).flush t = false := by decide +kernel
theorem liveAt1_2 : ∀ t : Fin cfg1.N, mvLast (grid1.coords t) → cfg1.idle 2 (grid1.coords t) = false := by decide +kernel

abbrev ms1_0 (t : Fin cfg1.N) : Memref sig .tc .vmem S1x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)

abbrev scM1_0 : Memref sig .tc .vmem S1x1024 .f32 := Memref.whole cc1_scratch0

theorem PhiA1_eq (c : Dev nD) :
    (Pipeline.ΦA spec1 c : sProp 𝕄)
      = iprop(iprop(iprop(∃ d, owns (c : Thread nD τ) scM1_0 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

/-- What the region hands the kernel at each position: its coordinates, operands and input tiles. -/
abbrev ops1 (c : Dev nD) : MvOps F where
  i n hn := grid1.coords ⟨n, hn⟩
  first n hn := hcond1_0 ⟨n, hn⟩
  last n hn := hcond1_1 ⟨n, hn⟩
  a2 n hn := ms1_0 ⟨n, hn⟩
  h2 n hn := hs1_0 ⟨n, hn⟩
  a3 n hn := ms1_1 ⟨n, hn⟩
  h3 n hn := hs1_1 ⟨n, hn⟩
  a4 n hn := ms1_2 ⟨n, hn⟩
  h4 n hn := hs1_2 ⟨n, hn⟩
  acc := scM1_0
  hacc := Memref.isWhole_whole _
  x0 n hn := iblk1 V c 0 ⟨n, hn⟩
  x1 n hn := iblk1 V c 1 ⟨n, hn⟩

/-- The body at point `t` is the one matrix-vector kernel at the point's coordinates and operands. -/
theorem bodyAt1_eq (t : Fin cfg1.N) : bodyAt1 (F := F) t
    = mvKernel (grid1.coords t) (ms1_0 t) (hs1_0 t) (ms1_1 t) (hs1_1 t) (ms1_2 t) (hs1_2 t) scM1_0 (Memref.isWhole_whole _) := rfl

end Cert.KernelIdeal.Hand

end
-- ==== Proof.KI.Reg1.lean ====
import proofs.«151769_j20177756357157_1_alg».proof.Proof.KI.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the region keeps beside the accumulator. -/
abbrev rest1 (c : Dev nD) : sProp 𝕄 :=
  Pipeline.scopedRestBut (Ix := Unit) (Name := ℕ) (U := UR sig nD τ) (Lvl := ℕ) (Val := Elt F) spec1 c [cc1_scratch0]

/-- The region's proof data: the arrays as the region finds them; after a position each input window holds its tile and
    the output window what the position left. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (mvOutsAt (ops1 V c) c t.val t.isLt).1
  Φ t := mvPhi (ops1 V c) c (rest1 c) t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := rfl
theorem owed_eq1 (c : Dev nD) (t : Fin (cfg1.N + 1)) : (dat1 V c).owed t = 0 := rfl
theorem recorded_eq1 (c : Dev nD) (t : Fin (cfg1.N + 1)) : (dat1 V c).recorded t = Set.univ := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (mvOutsAt (ops1 V c) c t.val t.isLt).1 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point is the kernel's step at the point's position: a last row tile writes the output tile, any other
    leaves its buffer as it was. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1]
  rw [show (dat1 V c).owesAt () t.succ = (dat1 V c).owesAt () t.castSucc from rfl]
  rw [show (dat1 V c).Φ t.succ = mvPhi (ops1 V c) c (rest1 c) (t.val + 1) t.isLt from rfl,
    show (dat1 V c).Φ t.castSucc = mvPhi (ops1 V c) c (rest1 c) t.val (Nat.le_of_lt t.isLt) from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h1 : t.val % 4 = 3
  · rw [show (dat1 V c).leavesExact 2 t = owns (c : Thread nD τ) (ms1_2 t) fullShare ((dat1 V c).after 2 t) from by
      unfold Dat.leavesExact; rw [liveAt1_2 t ((hcond1_1 t).mpr h1)], after1_2]
    iintro ⟨HΦ, Ho, ⟨%d0, H0⟩, ⟨%d1, H1⟩, ⟨%d2, H2⟩⟩
    iapply (mvPointLast (ops1 V c) c _ t.val t.isLt h1 _)
    isplitl [HΦ]; · iexact HΦ
    isplitl [Ho]; · iexact Ho
    isplitl [H0]; · iexact H0
    isplitl [H1]; · iexact H1
    iexists _; iexact H2
  · rw [Dat.leavesExact_idle (dat1 V c) 2 t (idleAt1_2 t (fun h => h1 ((hcond1_1 t).mp h))) (noFlush1_2 t (fun h => h1 ((hcond1_1 t).mp h)))]
    iintro ⟨HΦ, Ho, ⟨%d0, H0⟩, ⟨%d1, H1⟩, ⟨%d2, H2⟩⟩
    iapply (mvPoint (ops1 V c) c _ t.val t.isLt h1 _ _ ((dat1 V c).before 2 t d2) (by iintro H; iexists d2; iexact H))
    isplitl [HΦ]; · iexact HΦ
    isplitl [Ho]; · iexact Ho
    isplitl [H0]; · iexact H0
    isplitl [H1]; · iexact H1
    iexact H2

theorem body_obligation1 (c : Dev nD) : BodyObligation (dat1 (F := F) V c) (defs₀ (F := F)) Variants.none () Set.univ := fun t => by
  rw [bigSep_W1, bigSep_W1]
  exact sound_body1 V c t

/-- Before the first point the invariant is the region's own, with the accumulator singled out. -/
theorem hin1 (c : Dev nD) : (Pipeline.ΦA spec1 c : sProp 𝕄) ⊢ (dat1 V c).Φ 0 := by
  rw [PhiA1_eq]
  exact Idealize.SL.BI.Entails.refl _

/-- After the last point the accumulator's contents are forgotten. -/
theorem hout1 (c : Dev nD) : (dat1 V c).Φ (Fin.last cfg1.N) ⊢ (Pipeline.ΦA spec1 c : sProp 𝕄) := by
  rw [PhiA1_eq]
  exact mvPhi_start (ops1 V c) c (rest1 c) (Fin.last cfg1.N).val (Nat.le_of_lt_succ (Fin.last cfg1.N).isLt)

end Cert.KernelIdeal.Hand

end
-- ==== Proof.KI.Reg2Runs.lean ====
import proofs.«151769_j20177756357157_1_alg».proof.Proof.KI.MvPoint

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hcond2_0 : ∀ t : Fin cfg2.N, mvFirst (grid2.coords t) ↔ t.val % 4 = 0 :=
  (by decide +kernel : ∀ t : Fin grid2.N, mvFirst (grid2.coords t) ↔ t.val % 4 = 0)

theorem hcond2_1 : ∀ t : Fin cfg2.N, mvLast (grid2.coords t) ↔ t.val % 4 = 3 :=
  (by decide +kernel : ∀ t : Fin grid2.N, mvLast (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2 : ∀ t : Fin cfg2.N, ¬mvLast (grid2.coords t) → cfg2.idle 2 (grid2.coords t) = true := by decide +kernel
theorem noFlush2_2 : ∀ t : Fin cfg2.N, ¬mvLast (grid2.coords t) → (cfg2.win 2).flush t = false := by decide +kernel
theorem liveAt2_2 : ∀ t : Fin cfg2.N, mvLast (grid2.coords t) → cfg2.idle 2 (grid2.coords t) = false := by decide +kernel

abbrev ms2_0 (t : Fin cfg2.N) : Memref sig .tc .vmem S1x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)

abbrev scM2_0 : Memref sig .tc .vmem S1x1024 .f32 := Memref.whole cc2_scratch0

theorem PhiA2_eq (c : Dev nD) :
    (Pipeline.ΦA spec2 c : sProp 𝕄)
      = iprop(iprop(iprop(∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

/-- What the region hands the kernel at each position: its coordinates, operands and input tiles. -/
abbrev ops2 (c : Dev nD) : MvOps F where
  i n hn := grid2.coords ⟨n, hn⟩
  first n hn := hcond2_0 ⟨n, hn⟩
  last n hn := hcond2_1 ⟨n, hn⟩
  a2 n hn := ms2_0 ⟨n, hn⟩
  h2 n hn := hs2_0 ⟨n, hn⟩
  a3 n hn := ms2_1 ⟨n, hn⟩
  h3 n hn := hs2_1 ⟨n, hn⟩
  a4 n hn := ms2_2 ⟨n, hn⟩
  h4 n hn := hs2_2 ⟨n, hn⟩
  acc := scM2_0
  hacc := Memref.isWhole_whole _
  x0 n hn := iblk2 V c 0 ⟨n, hn⟩
  x1 n hn := iblk2 V c 1 ⟨n, hn⟩

/-- The body at point `t` is the one matrix-vector kernel at the point's coordinates and operands. -/
theorem bodyAt2_eq (t : Fin cfg2.N) : bodyAt2 (F := F) t
    = mvKernel (grid2.coords t) (ms2_0 t) (hs2_0 t) (ms2_1 t) (hs2_1 t) (ms2_2 t) (hs2_2 t) scM2_0 (Memref.isWhole_whole _) := rfl

end Cert.KernelIdeal.Hand

end
-- ==== Proof.KI.Reg2.lean ====
import proofs.«151769_j20177756357157_1_alg».proof.Proof.KI.Reg2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the region keeps beside the accumulator. -/
abbrev rest2 (c : Dev nD) : sProp 𝕄 :=
  Pipeline.scopedRestBut (Ix := Unit) (Name := ℕ) (U := UR sig nD τ) (Lvl := ℕ) (Val := Elt F) spec2 c [cc2_scratch0]

/-- The region's proof data: the arrays as the region finds them; after a position each input window holds its tile and
    the output window what the position left. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (mvOutsAt (ops2 V c) c t.val t.isLt).1
  Φ t := mvPhi (ops2 V c) c (rest2 c) t.val (Nat.le_of_lt_succ t.isLt)
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := rfl
theorem owed_eq2 (c : Dev nD) (t : Fin (cfg2.N + 1)) : (dat2 V c).owed t = 0 := rfl
theorem recorded_eq2 (c : Dev nD) (t : Fin (cfg2.N + 1)) : (dat2 V c).recorded t = Set.univ := rfl

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (mvOutsAt (ops2 V c) c t.val t.isLt).1 := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 8000000 in
/-- The body at any point is the kernel's step at the point's position: a last row tile writes the output tile, any other
    leaves its buffer as it was. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  rw [bodyAt2_eq]
  simp only [before2_0, before2_1]
  rw [show (dat2 V c).owesAt () t.succ = (dat2 V c).owesAt () t.castSucc from rfl]
  rw [show (dat2 V c).Φ t.succ = mvPhi (ops2 V c) c (rest2 c) (t.val + 1) t.isLt from rfl,
    show (dat2 V c).Φ t.castSucc = mvPhi (ops2 V c) c (rest2 c) t.val (Nat.le_of_lt t.isLt) from rfl]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  by_cases h1 : t.val % 4 = 3
  · rw [show (dat2 V c).leavesExact 2 t = owns (c : Thread nD τ) (ms2_2 t) fullShare ((dat2 V c).after 2 t) from by
      unfold Dat.leavesExact; rw [liveAt2_2 t ((hcond2_1 t).mpr h1)], after2_2]
    iintro ⟨HΦ, Ho, ⟨%d0, H0⟩, ⟨%d1, H1⟩, ⟨%d2, H2⟩⟩
    iapply (mvPointLast (ops2 V c) c _ t.val t.isLt h1 _)
    isplitl [HΦ]; · iexact HΦ
    isplitl [Ho]; · iexact Ho
    isplitl [H0]; · iexact H0
    isplitl [H1]; · iexact H1
    iexists _; iexact H2
  · rw [Dat.leavesExact_idle (dat2 V c) 2 t (idleAt2_2 t (fun h => h1 ((hcond2_1 t).mp h))) (noFlush2_2 t (fun h => h1 ((hcond2_1 t).mp h)))]
    iintro ⟨HΦ, Ho, ⟨%d0, H0⟩, ⟨%d1, H1⟩, ⟨%d2, H2⟩⟩
    iapply (mvPoint (ops2 V c) c _ t.val t.isLt h1 _ _ ((dat2 V c).before 2 t d2) (by iintro H; iexists d2; iexact H))
    isplitl [HΦ]; · iexact HΦ
    isplitl [Ho]; · iexact Ho
    isplitl [H0]; · iexact H0
    isplitl [H1]; · iexact H1
    iexact H2

theorem body_obligation2 (c : Dev nD) : BodyObligation (dat2 (F := F) V c) (defs₀ (F := F)) Variants.none () Set.univ := fun t => by
  rw [bigSep_W2, bigSep_W2]
  exact sound_body2 V c t

/-- Before the first point the invariant is the region's own, with the accumulator singled out. -/
theorem hin2 (c : Dev nD) : (Pipeline.ΦA spec2 c : sProp 𝕄) ⊢ (dat2 V c).Φ 0 := by
  rw [PhiA2_eq]
  exact Idealize.SL.BI.Entails.refl _

/-- After the last point the accumulator's contents are forgotten. -/
theorem hout2 (c : Dev nD) : (dat2 V c).Φ (Fin.last cfg2.N) ⊢ (Pipeline.ΦA spec2 c : sProp 𝕄) := by
  rw [PhiA2_eq]
  exact mvPhi_start (ops2 V c) c (rest2 c) (Fin.last cfg2.N).val (Nat.le_of_lt_succ (Fin.last cfg2.N).isLt)

end Cert.KernelIdeal.Hand

end
-- ==== Proof.KI.Reg3Runs.lean ====
import proofs.«151769_j20177756357157_1_alg».proof.Proof.KI.MvPoint

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem hcond3_0 : ∀ t : Fin cfg3.N, mvFirst (grid3.coords t) ↔ t.val % 4 = 0 :=
  (by decide +kernel : ∀ t : Fin grid3.N, mvFirst (grid3.coords t) ↔ t.val % 4 = 0)

theorem hcond3_1 : ∀ t : Fin cfg3.N, mvLast (grid3.coords t) ↔ t.val % 4 = 3 :=
  (by decide +kernel : ∀ t : Fin grid3.N, mvLast (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬mvLast (grid3.coords t) → cfg3.idle 2 (grid3.coords t) = true := by decide +kernel
theorem noFlush3_2 : ∀ t : Fin cfg3.N, ¬mvLast (grid3.coords t) → (cfg3.win 2).flush t = false := by decide +kernel
theorem liveAt3_2 : ∀ t : Fin cfg3.N, mvLast (grid3.coords t) → cfg3.idle 2 (grid3.coords t) = false := by decide +kernel

abbrev ms3_0 (t : Fin cfg3.N) : Memref sig .tc .vmem S1x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1024 .f32 := win3_2.stage (cfg3.slots t 2)
abbrev hs3_2 (t : Fin cfg3.N) : (ms3_2 t).IsWhole := hstage3_2 ((cfg3.slots t 2).cast nbuf3_2)

abbrev scM3_0 : Memref sig .tc .vmem S1x1024 .f32 := Memref.whole cc3_scratch0

theorem PhiA3_eq (c : Dev nD) :
    (Pipeline.ΦA spec3 c : sProp 𝕄)
      = iprop(iprop(iprop(∃ d, owns (c : Thread nD τ) scM3_0 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-- What the region hands the kernel at each position: its coordinates, operands and input tiles. -/
abbrev ops3 (c : Dev nD) : MvOps F where
  i n hn := grid3.coords ⟨n, hn⟩
  first n hn := hcond3_0 ⟨n, hn⟩
  last n hn := hcond3_1 ⟨n, hn⟩
  a2 n hn := ms3_0 ⟨n, hn⟩
  h2 n hn := hs3_0 ⟨n, hn⟩
  a3 n hn := ms3_1 ⟨n, hn⟩
  h3 n hn := hs3_1 ⟨n, hn⟩
  a4 n hn := ms3_2 ⟨n, hn⟩
  h4 n hn := hs3_2 ⟨n, hn⟩
  acc := scM3_0
  hacc := Memref.isWhole_whole _
  x0 n hn := iblk3 V c 0 ⟨n, hn⟩
  x1 n hn := iblk3 V c 1 ⟨n, hn⟩

/-- The body at point `t` is the one matrix-vector kernel at the point's coordinates and operands. -/
theorem bodyAt3_eq (t : Fin cfg3.N) : bodyAt3 (F := F) t
    = mvKernel (grid3.coords t) (ms3_0 t) (hs3_0 t) (ms3_1 t) (hs3_1 t) (ms3_2 t) (hs3_2 t) scM3_0 (Memref.isWhole_whole _) := rfl

end Cert.KernelIdeal.Hand

end
-- ==== Proof.KI.Reg3.lean ====
import proofs.«151769_j20177756357157_1_alg».proof.Proof.KI.Reg3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the region keeps beside the accumulator. -/
abbrev rest3 (c : Dev nD) : sProp 𝕄 :=
  Pipeline.scopedRestBut (Ix := Unit) (Name := ℕ) (U := UR sig nD τ) (Lvl := ℕ) (Val := Elt F) spec3 c [cc3_scratch0]

/-- The region's proof data: the arrays as the region finds them; after a position each input window holds its tile and
    the output window what the position left. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (mvOutsAt (ops3 V c) c t.val t.isLt).1
  Φ t := mvPhi (ops3 V c) c (rest3 c) t.val (Nat.le_of_lt_succ t.isLt)
  q _ := fullShare
  owed _ := 0

theorem A_eq3 (c : Dev nD) (w : Fin cfg3.W) : (dat3 V c).A w = V c (Pipeline.arrRef spec3 w) := by
  dsimp only [dat3]
theorem q_eq3 (c : Dev nD) (w : Fin cfg3.W) : (dat3 V c).q w = fullShare := rfl
theorem owed_eq3 (c : Dev nD) (t : Fin (cfg3.N + 1)) : (dat3 V c).owed t = 0 := rfl
theorem recorded_eq3 (c : Dev nD) (t : Fin (cfg3.N + 1)) : (dat3 V c).recorded t = Set.univ := rfl

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (mvOutsAt (ops3 V c) c t.val t.isLt).1 := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 8000000 in
/-- The body at any point is the kernel's step at the point's position: a last row tile writes the output tile, any other
    leaves its buffer as it was. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3
  rw [bodyAt3_eq]
  simp only [before3_0, before3_1]
  rw [show (dat3 V c).owesAt () t.succ = (dat3 V c).owesAt () t.castSucc from rfl]
  rw [show (dat3 V c).Φ t.succ = mvPhi (ops3 V c) c (rest3 c) (t.val + 1) t.isLt from rfl,
    show (dat3 V c).Φ t.castSucc = mvPhi (ops3 V c) c (rest3 c) t.val (Nat.le_of_lt t.isLt) from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  by_cases h1 : t.val % 4 = 3
  · rw [show (dat3 V c).leavesExact 2 t = owns (c : Thread nD τ) (ms3_2 t) fullShare ((dat3 V c).after 2 t) from by
      unfold Dat.leavesExact; rw [liveAt3_2 t ((hcond3_1 t).mpr h1)], after3_2]
    iintro ⟨HΦ, Ho, ⟨%d0, H0⟩, ⟨%d1, H1⟩, ⟨%d2, H2⟩⟩
    iapply (mvPointLast (ops3 V c) c _ t.val t.isLt h1 _)
    isplitl [HΦ]; · iexact HΦ
    isplitl [Ho]; · iexact Ho
    isplitl [H0]; · iexact H0
    isplitl [H1]; · iexact H1
    iexists _; iexact H2
  · rw [Dat.leavesExact_idle (dat3 V c) 2 t (idleAt3_2 t (fun h => h1 ((hcond3_1 t).mp h))) (noFlush3_2 t (fun h => h1 ((hcond3_1 t).mp h)))]
    iintro ⟨HΦ, Ho, ⟨%d0, H0⟩, ⟨%d1, H1⟩, ⟨%d2, H2⟩⟩
    iapply (mvPoint (ops3 V c) c _ t.val t.isLt h1 _ _ ((dat3 V c).before 2 t d2) (by iintro H; iexists d2; iexact H))
    isplitl [HΦ]; · iexact HΦ
    isplitl [Ho]; · iexact Ho
    isplitl [H0]; · iexact H0
    isplitl [H1]; · iexact H1
    iexact H2

theorem body_obligation3 (c : Dev nD) : BodyObligation (dat3 (F := F) V c) (defs₀ (F := F)) Variants.none () Set.univ := fun t => by
  rw [bigSep_W3, bigSep_W3]
  exact sound_body3 V c t

/-- Before the first point the invariant is the region's own, with the accumulator singled out. -/
theorem hin3 (c : Dev nD) : (Pipeline.ΦA spec3 c : sProp 𝕄) ⊢ (dat3 V c).Φ 0 := by
  rw [PhiA3_eq]
  exact Idealize.SL.BI.Entails.refl _

/-- After the last point the accumulator's contents are forgotten. -/
theorem hout3 (c : Dev nD) : (dat3 V c).Φ (Fin.last cfg3.N) ⊢ (Pipeline.ΦA spec3 c : sProp 𝕄) := by
  rw [PhiA3_eq]
  exact mvPhi_start (ops3 V c) c (rest3 c) (Fin.last cfg3.N).val (Nat.le_of_lt_succ (Fin.last cfg3.N).isLt)

end Cert.KernelIdeal.Hand

end
-- ==== Proof.KI.Reg4Runs.lean ====
import proofs.«151769_j20177756357157_1_alg».proof.Proof.KI.MvPoint

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem hcond4_0 : ∀ t : Fin cfg4.N, mvFirst (grid4.coords t) ↔ t.val % 4 = 0 :=
  (by decide +kernel : ∀ t : Fin grid4.N, mvFirst (grid4.coords t) ↔ t.val % 4 = 0)

theorem hcond4_1 : ∀ t : Fin cfg4.N, mvLast (grid4.coords t) ↔ t.val % 4 = 3 :=
  (by decide +kernel : ∀ t : Fin grid4.N, mvLast (grid4.coords t) ↔ t.val % 4 = 3)

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬mvLast (grid4.coords t) → cfg4.idle 2 (grid4.coords t) = true := by decide +kernel
theorem noFlush4_2 : ∀ t : Fin cfg4.N, ¬mvLast (grid4.coords t) → (cfg4.win 2).flush t = false := by decide +kernel
theorem liveAt4_2 : ∀ t : Fin cfg4.N, mvLast (grid4.coords t) → cfg4.idle 2 (grid4.coords t) = false := by decide +kernel

abbrev ms4_0 (t : Fin cfg4.N) : Memref sig .tc .vmem S1x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x1024 .f32 := win4_2.stage (cfg4.slots t 2)
abbrev hs4_2 (t : Fin cfg4.N) : (ms4_2 t).IsWhole := hstage4_2 ((cfg4.slots t 2).cast nbuf4_2)

abbrev scM4_0 : Memref sig .tc .vmem S1x1024 .f32 := Memref.whole cc4_scratch0

theorem PhiA4_eq (c : Dev nD) :
    (Pipeline.ΦA spec4 c : sProp 𝕄)
      = iprop(iprop(iprop(∃ d, owns (c : Thread nD τ) scM4_0 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

/-- What the region hands the kernel at each position: its coordinates, operands and input tiles. -/
abbrev ops4 (c : Dev nD) : MvOps F where
  i n hn := grid4.coords ⟨n, hn⟩
  first n hn := hcond4_0 ⟨n, hn⟩
  last n hn := hcond4_1 ⟨n, hn⟩
  a2 n hn := ms4_0 ⟨n, hn⟩
  h2 n hn := hs4_0 ⟨n, hn⟩
  a3 n hn := ms4_1 ⟨n, hn⟩
  h3 n hn := hs4_1 ⟨n, hn⟩
  a4 n hn := ms4_2 ⟨n, hn⟩
  h4 n hn := hs4_2 ⟨n, hn⟩
  acc := scM4_0
  hacc := Memref.isWhole_whole _
  x0 n hn := iblk4 V c 0 ⟨n, hn⟩
  x1 n hn := iblk4 V c 1 ⟨n, hn⟩

/-- The body at point `t` is the one matrix-vector kernel at the point's coordinates and operands. -/
theorem bodyAt4_eq (t : Fin cfg4.N) : bodyAt4 (F := F) t
    = mvKernel (grid4.coords t) (ms4_0 t) (hs4_0 t) (ms4_1 t) (hs4_1 t) (ms4_2 t) (hs4_2 t) scM4_0 (Memref.isWhole_whole _) := rfl

end Cert.KernelIdeal.Hand

end
-- ==== Proof.KI.Reg4.lean ====
import proofs.«151769_j20177756357157_1_alg».proof.Proof.KI.Reg4Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the region keeps beside the accumulator. -/
abbrev rest4 (c : Dev nD) : sProp 𝕄 :=
  Pipeline.scopedRestBut (Ix := Unit) (Name := ℕ) (U := UR sig nD τ) (Lvl := ℕ) (Val := Elt F) spec4 c [cc4_scratch0]

/-- The region's proof data: the arrays as the region finds them; after a position each input window holds its tile and
    the output window what the position left. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (mvOutsAt (ops4 V c) c t.val t.isLt).1
  Φ t := mvPhi (ops4 V c) c (rest4 c) t.val (Nat.le_of_lt_succ t.isLt)
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := rfl
theorem owed_eq4 (c : Dev nD) (t : Fin (cfg4.N + 1)) : (dat4 V c).owed t = 0 := rfl
theorem recorded_eq4 (c : Dev nD) (t : Fin (cfg4.N + 1)) : (dat4 V c).recorded t = Set.univ := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (mvOutsAt (ops4 V c) c t.val t.isLt).1 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 8000000 in
/-- The body at any point is the kernel's step at the point's position: a last row tile writes the output tile, any other
    leaves its buffer as it was. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4
  rw [bodyAt4_eq]
  simp only [before4_0, before4_1]
  rw [show (dat4 V c).owesAt () t.succ = (dat4 V c).owesAt () t.castSucc from rfl]
  rw [show (dat4 V c).Φ t.succ = mvPhi (ops4 V c) c (rest4 c) (t.val + 1) t.isLt from rfl,
    show (dat4 V c).Φ t.castSucc = mvPhi (ops4 V c) c (rest4 c) t.val (Nat.le_of_lt t.isLt) from rfl]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  by_cases h1 : t.val % 4 = 3
  · rw [show (dat4 V c).leavesExact 2 t = owns (c : Thread nD τ) (ms4_2 t) fullShare ((dat4 V c).after 2 t) from by
      unfold Dat.leavesExact; rw [liveAt4_2 t ((hcond4_1 t).mpr h1)], after4_2]
    iintro ⟨HΦ, Ho, ⟨%d0, H0⟩, ⟨%d1, H1⟩, ⟨%d2, H2⟩⟩
    iapply (mvPointLast (ops4 V c) c _ t.val t.isLt h1 _)
    isplitl [HΦ]; · iexact HΦ
    isplitl [Ho]; · iexact Ho
    isplitl [H0]; · iexact H0
    isplitl [H1]; · iexact H1
    iexists _; iexact H2
  · rw [Dat.leavesExact_idle (dat4 V c) 2 t (idleAt4_2 t (fun h => h1 ((hcond4_1 t).mp h))) (noFlush4_2 t (fun h => h1 ((hcond4_1 t).mp h)))]
    iintro ⟨HΦ, Ho, ⟨%d0, H0⟩, ⟨%d1, H1⟩, ⟨%d2, H2⟩⟩
    iapply (mvPoint (ops4 V c) c _ t.val t.isLt h1 _ _ ((dat4 V c).before 2 t d2) (by iintro H; iexists d2; iexact H))
    isplitl [HΦ]; · iexact HΦ
    isplitl [Ho]; · iexact Ho
    isplitl [H0]; · iexact H0
    isplitl [H1]; · iexact H1
    iexact H2

theorem body_obligation4 (c : Dev nD) : BodyObligation (dat4 (F := F) V c) (defs₀ (F := F)) Variants.none () Set.univ := fun t => by
  rw [bigSep_W4, bigSep_W4]
  exact sound_body4 V c t

/-- Before the first point the invariant is the region's own, with the accumulator singled out. -/
theorem hin4 (c : Dev nD) : (Pipeline.ΦA spec4 c : sProp 𝕄) ⊢ (dat4 V c).Φ 0 := by
  rw [PhiA4_eq]
  exact Idealize.SL.BI.Entails.refl _

/-- After the last point the accumulator's contents are forgotten. -/
theorem hout4 (c : Dev nD) : (dat4 V c).Φ (Fin.last cfg4.N) ⊢ (Pipeline.ΦA spec4 c : sProp 𝕄) := by
  rw [PhiA4_eq]
  exact mvPhi_start (ops4 V c) c (rest4 c) (Fin.last cfg4.N).val (Nat.le_of_lt_succ (Fin.last cfg4.N).isLt)

end Cert.KernelIdeal.Hand

end
-- ==== Proof.KI.Reg5Runs.lean ====
import proofs.«151769_j20177756357157_1_alg».proof.Proof.KI.MvPoint

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem hcond5_0 : ∀ t : Fin cfg5.N, mvFirst (grid5.coords t) ↔ t.val % 4 = 0 :=
  (by decide +kernel : ∀ t : Fin grid5.N, mvFirst (grid5.coords t) ↔ t.val % 4 = 0)

theorem hcond5_1 : ∀ t : Fin cfg5.N, mvLast (grid5.coords t) ↔ t.val % 4 = 3 :=
  (by decide +kernel : ∀ t : Fin grid5.N, mvLast (grid5.coords t) ↔ t.val % 4 = 3)

theorem liveAt5_0 : ∀ t : Fin cfg5.N, cfg5.idle 0 (grid5.coords t) = false := by decide +kernel
theorem liveAt5_1 : ∀ t : Fin cfg5.N, cfg5.idle 1 (grid5.coords t) = false := by decide +kernel
theorem idleAt5_2 : ∀ t : Fin cfg5.N, ¬mvLast (grid5.coords t) → cfg5.idle 2 (grid5.coords t) = true := by decide +kernel
theorem noFlush5_2 : ∀ t : Fin cfg5.N, ¬mvLast (grid5.coords t) → (cfg5.win 2).flush t = false := by decide +kernel
theorem liveAt5_2 : ∀ t : Fin cfg5.N, mvLast (grid5.coords t) → cfg5.idle 2 (grid5.coords t) = false := by decide +kernel

abbrev ms5_0 (t : Fin cfg5.N) : Memref sig .tc .vmem S1x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x1024 .f32 := win5_2.stage (cfg5.slots t 2)
abbrev hs5_2 (t : Fin cfg5.N) : (ms5_2 t).IsWhole := hstage5_2 ((cfg5.slots t 2).cast nbuf5_2)

abbrev scM5_0 : Memref sig .tc .vmem S1x1024 .f32 := Memref.whole cc5_scratch0

theorem PhiA5_eq (c : Dev nD) :
    (Pipeline.ΦA spec5 c : sProp 𝕄)
      = iprop(iprop(iprop(∃ d, owns (c : Thread nD τ) scM5_0 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

/-- What the region hands the kernel at each position: its coordinates, operands and input tiles. -/
abbrev ops5 (c : Dev nD) : MvOps F where
  i n hn := grid5.coords ⟨n, hn⟩
  first n hn := hcond5_0 ⟨n, hn⟩
  last n hn := hcond5_1 ⟨n, hn⟩
  a2 n hn := ms5_0 ⟨n, hn⟩
  h2 n hn := hs5_0 ⟨n, hn⟩
  a3 n hn := ms5_1 ⟨n, hn⟩
  h3 n hn := hs5_1 ⟨n, hn⟩
  a4 n hn := ms5_2 ⟨n, hn⟩
  h4 n hn := hs5_2 ⟨n, hn⟩
  acc := scM5_0
  hacc := Memref.isWhole_whole _
  x0 n hn := iblk5 V c 0 ⟨n, hn⟩
  x1 n hn := iblk5 V c 1 ⟨n, hn⟩

/-- The body at point `t` is the one matrix-vector kernel at the point's coordinates and operands. -/
theorem bodyAt5_eq (t : Fin cfg5.N) : bodyAt5 (F := F) t
    = mvKernel (grid5.coords t) (ms5_0 t) (hs5_0 t) (ms5_1 t) (hs5_1 t) (ms5_2 t) (hs5_2 t) scM5_0 (Memref.isWhole_whole _) := rfl

end Cert.KernelIdeal.Hand

end
-- ==== Proof.KI.Reg5.lean ====
import proofs.«151769_j20177756357157_1_alg».proof.Proof.KI.Reg5Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the region keeps beside the accumulator. -/
abbrev rest5 (c : Dev nD) : sProp 𝕄 :=
  Pipeline.scopedRestBut (Ix := Unit) (Name := ℕ) (U := UR sig nD τ) (Lvl := ℕ) (Val := Elt F) spec5 c [cc5_scratch0]

/-- The region's proof data: the arrays as the region finds them; after a position each input window holds its tile and
    the output window what the position left. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => (mvOutsAt (ops5 V c) c t.val t.isLt).1
  Φ t := mvPhi (ops5 V c) c (rest5 c) t.val (Nat.le_of_lt_succ t.isLt)
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := rfl
theorem owed_eq5 (c : Dev nD) (t : Fin (cfg5.N + 1)) : (dat5 V c).owed t = 0 := rfl
theorem recorded_eq5 (c : Dev nD) (t : Fin (cfg5.N + 1)) : (dat5 V c).recorded t = Set.univ := rfl

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = (mvOutsAt (ops5 V c) c t.val t.isLt).1 := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t)

set_option maxHeartbeats 8000000 in
/-- The body at any point is the kernel's step at the point's position: a last row tile writes the output tile, any other
    leaves its buffer as it was. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5
  rw [bodyAt5_eq]
  simp only [before5_0, before5_1]
  rw [show (dat5 V c).owesAt () t.succ = (dat5 V c).owesAt () t.castSucc from rfl]
  rw [show (dat5 V c).Φ t.succ = mvPhi (ops5 V c) c (rest5 c) (t.val + 1) t.isLt from rfl,
    show (dat5 V c).Φ t.castSucc = mvPhi (ops5 V c) c (rest5 c) t.val (Nat.le_of_lt t.isLt) from rfl]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  by_cases h1 : t.val % 4 = 3
  · rw [show (dat5 V c).leavesExact 2 t = owns (c : Thread nD τ) (ms5_2 t) fullShare ((dat5 V c).after 2 t) from by
      unfold Dat.leavesExact; rw [liveAt5_2 t ((hcond5_1 t).mpr h1)], after5_2]
    iintro ⟨HΦ, Ho, ⟨%d0, H0⟩, ⟨%d1, H1⟩, ⟨%d2, H2⟩⟩
    iapply (mvPointLast (ops5 V c) c _ t.val t.isLt h1 _)
    isplitl [HΦ]; · iexact HΦ
    isplitl [Ho]; · iexact Ho
    isplitl [H0]; · iexact H0
    isplitl [H1]; · iexact H1
    iexists _; iexact H2
  · rw [Dat.leavesExact_idle (dat5 V c) 2 t (idleAt5_2 t (fun h => h1 ((hcond5_1 t).mp h))) (noFlush5_2 t (fun h => h1 ((hcond5_1 t).mp h)))]
    iintro ⟨HΦ, Ho, ⟨%d0, H0⟩, ⟨%d1, H1⟩, ⟨%d2, H2⟩⟩
    iapply (mvPoint (ops5 V c) c _ t.val t.isLt h1 _ _ ((dat5 V c).before 2 t d2) (by iintro H; iexists d2; iexact H))
    isplitl [HΦ]; · iexact HΦ
    isplitl [Ho]; · iexact Ho
    isplitl [H0]; · iexact H0
    isplitl [H1]; · iexact H1
    iexact H2

theorem body_obligation5 (c : Dev nD) : BodyObligation (dat5 (F := F) V c) (defs₀ (F := F)) Variants.none () Set.univ := fun t => by
  rw [bigSep_W5, bigSep_W5]
  exact sound_body5 V c t

/-- Before the first point the invariant is the region's own, with the accumulator singled out. -/
theorem hin5 (c : Dev nD) : (Pipeline.ΦA spec5 c : sProp 𝕄) ⊢ (dat5 V c).Φ 0 := by
  rw [PhiA5_eq]
  exact Idealize.SL.BI.Entails.refl _

/-- After the last point the accumulator's contents are forgotten. -/
theorem hout5 (c : Dev nD) : (dat5 V c).Φ (Fin.last cfg5.N) ⊢ (Pipeline.ΦA spec5 c : sProp 𝕄) := by
  rw [PhiA5_eq]
  exact mvPhi_start (ops5 V c) c (rest5 c) (Fin.last cfg5.N).val (Nat.le_of_lt_succ (Fin.last cfg5.N).isLt)

end Cert.KernelIdeal.Hand

end
-- ==== Proof.KI.Reg6Runs.lean ====
import proofs.«151769_j20177756357157_1_alg».proof.Proof.KI.MvPoint

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem hcond6_0 : ∀ t : Fin cfg6.N, mvFirst (grid6.coords t) ↔ t.val % 4 = 0 :=
  (by decide +kernel : ∀ t : Fin grid6.N, mvFirst (grid6.coords t) ↔ t.val % 4 = 0)

theorem hcond6_1 : ∀ t : Fin cfg6.N, mvLast (grid6.coords t) ↔ t.val % 4 = 3 :=
  (by decide +kernel : ∀ t : Fin grid6.N, mvLast (grid6.coords t) ↔ t.val % 4 = 3)

theorem liveAt6_0 : ∀ t : Fin cfg6.N, cfg6.idle 0 (grid6.coords t) = false := by decide +kernel
theorem liveAt6_1 : ∀ t : Fin cfg6.N, cfg6.idle 1 (grid6.coords t) = false := by decide +kernel
theorem idleAt6_2 : ∀ t : Fin cfg6.N, ¬mvLast (grid6.coords t) → cfg6.idle 2 (grid6.coords t) = true := by decide +kernel
theorem noFlush6_2 : ∀ t : Fin cfg6.N, ¬mvLast (grid6.coords t) → (cfg6.win 2).flush t = false := by decide +kernel
theorem liveAt6_2 : ∀ t : Fin cfg6.N, mvLast (grid6.coords t) → cfg6.idle 2 (grid6.coords t) = false := by decide +kernel

abbrev ms6_0 (t : Fin cfg6.N) : Memref sig .tc .vmem S1x1024 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x1024 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x1024 .f32 := win6_2.stage (cfg6.slots t 2)
abbrev hs6_2 (t : Fin cfg6.N) : (ms6_2 t).IsWhole := hstage6_2 ((cfg6.slots t 2).cast nbuf6_2)

abbrev scM6_0 : Memref sig .tc .vmem S1x1024 .f32 := Memref.whole cc6_scratch0

theorem PhiA6_eq (c : Dev nD) :
    (Pipeline.ΦA spec6 c : sProp 𝕄)
      = iprop(iprop(iprop(∃ d, owns (c : Thread nD τ) scM6_0 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

/-- What the region hands the kernel at each position: its coordinates, operands and input tiles. -/
abbrev ops6 (c : Dev nD) : MvOps F where
  i n hn := grid6.coords ⟨n, hn⟩
  first n hn := hcond6_0 ⟨n, hn⟩
  last n hn := hcond6_1 ⟨n, hn⟩
  a2 n hn := ms6_0 ⟨n, hn⟩
  h2 n hn := hs6_0 ⟨n, hn⟩
  a3 n hn := ms6_1 ⟨n, hn⟩
  h3 n hn := hs6_1 ⟨n, hn⟩
  a4 n hn := ms6_2 ⟨n, hn⟩
  h4 n hn := hs6_2 ⟨n, hn⟩
  acc := scM6_0
  hacc := Memref.isWhole_whole _
  x0 n hn := iblk6 V c 0 ⟨n, hn⟩
  x1 n hn := iblk6 V c 1 ⟨n, hn⟩

/-- The body at point `t` is the one matrix-vector kernel at the point's coordinates and operands. -/
theorem bodyAt6_eq (t : Fin cfg6.N) : bodyAt6 (F := F) t
    = mvKernel (grid6.coords t) (ms6_0 t) (hs6_0 t) (ms6_1 t) (hs6_1 t) (ms6_2 t) (hs6_2 t) scM6_0 (Memref.isWhole_whole _) := rfl

end Cert.KernelIdeal.Hand

end
-- ==== Proof.KI.Reg6.lean ====
import proofs.«151769_j20177756357157_1_alg».proof.Proof.KI.Reg6Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the region keeps beside the accumulator. -/
abbrev rest6 (c : Dev nD) : sProp 𝕄 :=
  Pipeline.scopedRestBut (Ix := Unit) (Name := ℕ) (U := UR sig nD τ) (Lvl := ℕ) (Val := Elt F) spec6 c [cc6_scratch0]

/-- The region's proof data: the arrays as the region finds them; after a position each input window holds its tile and
    the output window what the position left. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (mvOutsAt (ops6 V c) c t.val t.isLt).1
  Φ t := mvPhi (ops6 V c) c (rest6 c) t.val (Nat.le_of_lt_succ t.isLt)
  q _ := fullShare
  owed _ := 0

theorem A_eq6 (c : Dev nD) (w : Fin cfg6.W) : (dat6 V c).A w = V c (Pipeline.arrRef spec6 w) := by
  dsimp only [dat6]
theorem q_eq6 (c : Dev nD) (w : Fin cfg6.W) : (dat6 V c).q w = fullShare := rfl
theorem owed_eq6 (c : Dev nD) (t : Fin (cfg6.N + 1)) : (dat6 V c).owed t = 0 := rfl
theorem recorded_eq6 (c : Dev nD) (t : Fin (cfg6.N + 1)) : (dat6 V c).recorded t = Set.univ := rfl

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (mvOutsAt (ops6 V c) c t.val t.isLt).1 := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 8000000 in
/-- The body at any point is the kernel's step at the point's position: a last row tile writes the output tile, any other
    leaves its buffer as it was. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6
  rw [bodyAt6_eq]
  simp only [before6_0, before6_1]
  rw [show (dat6 V c).owesAt () t.succ = (dat6 V c).owesAt () t.castSucc from rfl]
  rw [show (dat6 V c).Φ t.succ = mvPhi (ops6 V c) c (rest6 c) (t.val + 1) t.isLt from rfl,
    show (dat6 V c).Φ t.castSucc = mvPhi (ops6 V c) c (rest6 c) t.val (Nat.le_of_lt t.isLt) from rfl]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  by_cases h1 : t.val % 4 = 3
  · rw [show (dat6 V c).leavesExact 2 t = owns (c : Thread nD τ) (ms6_2 t) fullShare ((dat6 V c).after 2 t) from by
      unfold Dat.leavesExact; rw [liveAt6_2 t ((hcond6_1 t).mpr h1)], after6_2]
    iintro ⟨HΦ, Ho, ⟨%d0, H0⟩, ⟨%d1, H1⟩, ⟨%d2, H2⟩⟩
    iapply (mvPointLast (ops6 V c) c _ t.val t.isLt h1 _)
    isplitl [HΦ]; · iexact HΦ
    isplitl [Ho]; · iexact Ho
    isplitl [H0]; · iexact H0
    isplitl [H1]; · iexact H1
    iexists _; iexact H2
  · rw [Dat.leavesExact_idle (dat6 V c) 2 t (idleAt6_2 t (fun h => h1 ((hcond6_1 t).mp h))) (noFlush6_2 t (fun h => h1 ((hcond6_1 t).mp h)))]
    iintro ⟨HΦ, Ho, ⟨%d0, H0⟩, ⟨%d1, H1⟩, ⟨%d2, H2⟩⟩
    iapply (mvPoint (ops6 V c) c _ t.val t.isLt h1 _ _ ((dat6 V c).before 2 t d2) (by iintro H; iexists d2; iexact H))
    isplitl [HΦ]; · iexact HΦ
    isplitl [Ho]; · iexact Ho
    isplitl [H0]; · iexact H0
    isplitl [H1]; · iexact H1
    iexact H2

theorem body_obligation6 (c : Dev nD) : BodyObligation (dat6 (F := F) V c) (defs₀ (F := F)) Variants.none () Set.univ := fun t => by
  rw [bigSep_W6, bigSep_W6]
  exact sound_body6 V c t

/-- Before the first point the invariant is the region's own, with the accumulator singled out. -/
theorem hin6 (c : Dev nD) : (Pipeline.ΦA spec6 c : sProp 𝕄) ⊢ (dat6 V c).Φ 0 := by
  rw [PhiA6_eq]
  exact Idealize.SL.BI.Entails.refl _

/-- After the last point the accumulator's contents are forgotten. -/
theorem hout6 (c : Dev nD) : (dat6 V c).Φ (Fin.last cfg6.N) ⊢ (Pipeline.ΦA spec6 c : sProp 𝕄) := by
  rw [PhiA6_eq]
  exact mvPhi_start (ops6 V c) c (rest6 c) (Fin.last cfg6.N).val (Nat.le_of_lt_succ (Fin.last cfg6.N).isLt)

end Cert.KernelIdeal.Hand

end
-- ==== Proof.KI.RunW.lean ====
import proofs.«151769_j20177756357157_1_alg».proof.Proof.Gen.KernelIdeal.Launch
import proofs.«151769_j20177756357157_1_alg».proof.Proof.Gen.KernelIdeal.Skeleton
import proofs.«151769_j20177756357157_1_alg».proof.Proof.Gen.KernelIdeal.Points
import proofs.«151769_j20177756357157_1_alg».proof.Proof.KI.Reg0
import proofs.«151769_j20177756357157_1_alg».proof.Proof.KI.Reg1
import proofs.«151769_j20177756357157_1_alg».proof.Proof.KI.Reg2
import proofs.«151769_j20177756357157_1_alg».proof.Proof.KI.Reg3
import proofs.«151769_j20177756357157_1_alg».proof.Proof.KI.Reg4
import proofs.«151769_j20177756357157_1_alg».proof.Proof.KI.Reg5
import proofs.«151769_j20177756357157_1_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev V4 : (c : Dev nD) → (b : Ref sig .tc) → Buf (Elt F) ((c : Thread nD τ).loc b) := fun c b => W4 m ρ c b

def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb

abbrev V5 : (c : Dev nD) → (b : Ref sig .tc) → Buf (Elt F) ((c : Thread nD τ).loc b) := fun c b => W5 m ρ c b

abbrev W6 : Dev nD → Valuation τ sig (Elt F) := fun c => StableHlo.after hostOps3 (W5 m ρ c)

abbrev V6 : (c : Dev nD) → (b : Ref sig .tc) → Buf (Elt F) ((c : Thread nD τ).loc b) := fun c b => W6 m ρ c b

def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb

abbrev V7 : (c : Dev nD) → (b : Ref sig .tc) → Buf (Elt F) ((c : Thread nD τ).loc b) := fun c b => W7 m ρ c b

def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb

abbrev V8 : (c : Dev nD) → (b : Ref sig .tc) → Buf (Elt F) ((c : Thread nD τ).loc b) := fun c b => W8 m ρ c b

abbrev W9 : Dev nD → Valuation τ sig (Elt F) := fun c => StableHlo.after hostOps5 (W8 m ρ c)

abbrev V9 : (c : Dev nD) → (b : Ref sig .tc) → Buf (Elt F) ((c : Thread nD τ).loc b) := fun c b => W9 m ρ c b

def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb

abbrev V10 : (c : Dev nD) → (b : Ref sig .tc) → Buf (Elt F) ((c : Thread nD τ).loc b) := fun c b => W10 m ρ c b

def W11 (c : Dev nD) : Valuation τ sig (Elt F) :=
  Pipeline.withArrays spec6 c (W10 m ρ c) fun w => (dat6 (V10 m ρ) c).arrAt w cfg6.N
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb

abbrev V11 : (c : Dev nD) → (b : Ref sig .tc) → Buf (Elt F) ((c : Thread nD τ).loc b) := fun c b => W11 m ρ c b

abbrev W12 : Dev nD → Valuation τ sig (Elt F) := fun c => StableHlo.after hostOps7 (W11 m ρ c)

abbrev V12 : (c : Dev nD) → (b : Ref sig .tc) → Buf (Elt F) ((c : Thread nD τ).loc b) := fun c b => W12 m ρ c b

abbrev adm : (p : Fin 7) → (pcfgs (F := F) p).Adm := fun p => (cfgs p).toPCfg_adm

def pdats : (p : Fin 7) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V10 m ρ) c

end Cert.KernelIdeal.Hand

end
-- ==== Proof.KI.Run.lean ====
import proofs.«151769_j20177756357157_1_alg».proof.Proof.Gen.KernelIdeal.Launch
import proofs.«151769_j20177756357157_1_alg».proof.Proof.Gen.KernelIdeal.Skeleton
import proofs.«151769_j20177756357157_1_alg».proof.Proof.Gen.KernelIdeal.Points
import proofs.«151769_j20177756357157_1_alg».proof.Proof.KI.Reg0
import proofs.«151769_j20177756357157_1_alg».proof.Proof.KI.Reg1
import proofs.«151769_j20177756357157_1_alg».proof.Proof.KI.Reg2
import proofs.«151769_j20177756357157_1_alg».proof.Proof.KI.Reg3
import proofs.«151769_j20177756357157_1_alg».proof.Proof.KI.Reg4
import proofs.«151769_j20177756357157_1_alg».proof.Proof.KI.Reg5
import proofs.«151769_j20177756357157_1_alg».proof.Proof.KI.Reg6
import proofs.«151769_j20177756357157_1_alg».proof.Proof.KI.RunW
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps3_fresh : (hostOps3 : List (HloOp τ sig (Elt F))).Forall fun op => op.fresh = ∅ := by
  simp only [List.Forall]; repeat' constructor

theorem hostOps5_fresh : (hostOps5 : List (HloOp τ sig (Elt F))).Forall fun op => op.fresh = ∅ := by
  simp only [List.Forall]; repeat' constructor

theorem hostOps7_fresh : (hostOps7 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W12 m ρ c) ∗ ∃ r, prngReg c r)

theorem pref_none (p : Fin 7) (c : Dev nD) :
    (Pipeline.prefHeld (pcfgs (F := F) p).pre c (fun _ => fullShare) (adm p).1 : sProp 𝕄) = BI.emp := by
  fin_cases p <;> (unfold Pipeline.prefHeld; rw [show (Finset.univ : Finset (Fin 0)) = ∅ from rfl, BI.bigSep_empty])

/-- The contents `W`, read at a reference. -/
abbrev atRefs (W : Dev nD → Valuation τ sig (Elt F)) : (c : Dev nD) → (b : Ref sig .tc) → Buf (Elt F) ((c : Thread nD τ).loc b) := fun c b => W c b

set_option backward.isDefEq.respectTransparency.types false in
/-- One record per region, from the region's facts: it is entered with the buffers at `Win` and left with them at `Wout`;
    its arrays go in at the proof data's entry contents and come back at the exit contents. -/
def regOf (p : Fin 7) (lf : Pipeline.LaunchFacts (nD := nD) (τ := τ) cfgs p) (Win Wout : Dev nD → Valuation τ sig (Elt F))
    (hbody : ∀ c, BodyObligation (pdats m ρ p c) (defs₀ (F := F)) Variants.none () Set.univ)
    (howed : ∀ c t, (pdats m ρ p c).owed t = 0)
    (hq : ∀ c w, (pdats m ρ p c).q w = fullShare)
    (hA : ∀ c w, (pdats m ρ p c).A w = atRefs Win c (Pipeline.arrRef (Pipeline.pin (pcfgs (F := F)) adm p).spec w))
    (hrec : ∀ c t, (pdats m ρ p c).recorded t = Set.univ)
    (harr : ∀ c w, Wout c (Proc.devRef .tc (Pipeline.arrRef (Pipeline.pin (pcfgs (F := F)) adm p).spec w)) = (pdats m ρ p c).arrAt w (Pipeline.pin (pcfgs (F := F)) adm p).N)
    (hne : ∀ c b, (∀ w, Pipeline.arrRef (Pipeline.pin (pcfgs (F := F)) adm p).spec w ≠ b) → Wout c (Proc.devRef .tc b) = Win c (Proc.devRef .tc b))
    (hin : ∀ c, (Pipeline.ΦA (Pipeline.pin (pcfgs (F := F)) adm p).spec c : sProp 𝕄) ⊢ (pdats m ρ p c).Φ 0)
    (hout : ∀ c, (pdats m ρ p c).Φ (Fin.last (Pipeline.pin (pcfgs (F := F)) adm p).N) ⊢ (Pipeline.ΦA (Pipeline.pin (pcfgs (F := F)) adm p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (atRefs Win c)
  hentry c := by
    rw [Pipeline.ownSems0_none]
    have hsplit := Pipeline.arrays_of_unscopedBufs (p := p) (pcfgs (F := F)) adm (pdats m ρ) lf.win lf.arr_whole c
      ((pdats m ρ p c).share_full fun w => hq c w) (atRefs Win c) fun w => hA c w
    rw [Pipeline.unscopedBufs_held] at hsplit
    have ho : (pdats m ρ p c).owed 0 = 0 := howed c 0
    have hr : (pdats m ρ p c).recorded 0 = Set.univ := hrec c 0
    iintro ⟨⟨Hub, Hp, HO⟩, -, -⟩
    ihave H := hsplit $$ Hub
    icases H with ⟨Ha, Hrest⟩
    imodintro
    isplitl [Ha]; · iexact Ha
    isplitr; · rw [pref_none]; iempintro
    isplitl [HO]
    · unfold Pipeline.Dat.owesAt Pipeline.owesWithin
      rw [ho]
      icases HO with ⟨%W, HO⟩; iexists W; isplitr; · ipureintro; exact fun _ _ => Or.inl (by rw [hr]; trivial)
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full fun w => hq c w)
      (atRefs Win c) (atRefs Wout c) ((pdats m ρ p c).arrAt · (Pipeline.pin (pcfgs (F := F)) adm p).N) (fun w => (harr c w).symm)
      (fun b hb => hne c b fun w e => hb (Finset.mem_image.mpr ⟨w, Finset.mem_univ _, e⟩))
    rw [Pipeline.unscopedBufs_held] at hjoin
    have ho : (pdats m ρ p c).owed (Fin.last (Pipeline.pin (pcfgs (F := F)) adm p).N) = 0 := howed c (Fin.last _)
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [ho]
    icases HO with ⟨%W, -, HO⟩; iexists W; iexact HO

set_option backward.isDefEq.respectTransparency.types false in
def reg0 : Pipeline.RegionSeg (pcfgs (F := F)) adm (pdats m ρ) () defs₀ 𝒱₀ L lv 0 :=
  regOf m ρ 0 launch0 (W1 m ρ) (W2 m ρ) (body_obligation0 (V1 m ρ)) (owed_eq0 (V1 m ρ)) (q_eq0 (V1 m ρ)) (A_eq0 (V1 m ρ))
    (recorded_eq0 (V1 m ρ)) (W2_arr m ρ) (W2_of_ne m ρ) (hin0 (V1 m ρ)) (hout0 (V1 m ρ))

set_option backward.isDefEq.respectTransparency.types false in
def reg1 : Pipeline.RegionSeg (pcfgs (F := F)) adm (pdats m ρ) () defs₀ 𝒱₀ L lv 1 :=
  regOf m ρ 1 launch1 (W3 m ρ) (W4 m ρ) (body_obligation1 (V3 m ρ)) (owed_eq1 (V3 m ρ)) (q_eq1 (V3 m ρ)) (A_eq1 (V3 m ρ))
    (recorded_eq1 (V3 m ρ)) (W4_arr m ρ) (W4_of_ne m ρ) (hin1 (V3 m ρ)) (hout1 (V3 m ρ))

set_option backward.isDefEq.respectTransparency.types false in
def reg2 : Pipeline.RegionSeg (pcfgs (F := F)) adm (pdats m ρ) () defs₀ 𝒱₀ L lv 2 :=
  regOf m ρ 2 launch2 (W4 m ρ) (W5 m ρ) (body_obligation2 (V4 m ρ)) (owed_eq2 (V4 m ρ)) (q_eq2 (V4 m ρ)) (A_eq2 (V4 m ρ))
    (recorded_eq2 (V4 m ρ)) (W5_arr m ρ) (W5_of_ne m ρ) (hin2 (V4 m ρ)) (hout2 (V4 m ρ))

set_option backward.isDefEq.respectTransparency.types false in
def reg3 : Pipeline.RegionSeg (pcfgs (F := F)) adm (pdats m ρ) () defs₀ 𝒱₀ L lv 3 :=
  regOf m ρ 3 launch3 (W6 m ρ) (W7 m ρ) (body_obligation3 (V6 m ρ)) (owed_eq3 (V6 m ρ)) (q_eq3 (V6 m ρ)) (A_eq3 (V6 m ρ))
    (recorded_eq3 (V6 m ρ)) (W7_arr m ρ) (W7_of_ne m ρ) (hin3 (V6 m ρ)) (hout3 (V6 m ρ))

set_option backward.isDefEq.respectTransparency.types false in
def reg4 : Pipeline.RegionSeg (pcfgs (F := F)) adm (pdats m ρ) () defs₀ 𝒱₀ L lv 4 :=
  regOf m ρ 4 launch4 (W7 m ρ) (W8 m ρ) (body_obligation4 (V7 m ρ)) (owed_eq4 (V7 m ρ)) (q_eq4 (V7 m ρ)) (A_eq4 (V7 m ρ))
    (recorded_eq4 (V7 m ρ)) (W8_arr m ρ) (W8_of_ne m ρ) (hin4 (V7 m ρ)) (hout4 (V7 m ρ))

set_option backward.isDefEq.respectTransparency.types false in
def reg5 : Pipeline.RegionSeg (pcfgs (F := F)) adm (pdats m ρ) () defs₀ 𝒱₀ L lv 5 :=
  regOf m ρ 5 launch5 (W9 m ρ) (W10 m ρ) (body_obligation5 (V9 m ρ)) (owed_eq5 (V9 m ρ)) (q_eq5 (V9 m ρ)) (A_eq5 (V9 m ρ))
    (recorded_eq5 (V9 m ρ)) (W10_arr m ρ) (W10_of_ne m ρ) (hin5 (V9 m ρ)) (hout5 (V9 m ρ))

set_option backward.isDefEq.respectTransparency.types false in
def reg6 : Pipeline.RegionSeg (pcfgs (F := F)) adm (pdats m ρ) () defs₀ 𝒱₀ L lv 6 :=
  regOf m ρ 6 launch6 (W10 m ρ) (W11 m ρ) (body_obligation6 (V10 m ρ)) (owed_eq6 (V10 m ρ)) (q_eq6 (V10 m ρ)) (A_eq6 (V10 m ρ))
    (recorded_eq6 (V10 m ρ)) (W11_arr m ρ) (W11_of_ne m ρ) (hin6 (V10 m ρ)) (hout6 (V10 m ρ))

abbrev segs : List (Pipeline.Seg (pcfgs (F := F)) adm (pdats m ρ) () defs₀ 𝒱₀ L lv) :=
  [
    .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .region (reg6 m ρ),
    .host (hseg hostOps7 hostOps7_sub hostOps7_fresh (W11 m ρ)) ]

theorem main_run (c : Dev nD) : main (F := F) c = Pipeline.Seg.run (segs m ρ) :=
  main_segs adm (pdats m ρ) () 𝒱₀ L lv _ _ _ _ _ _ _ _ _ _ _ _ rfl rfl rfl rfl rfl c

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem ((c : Thread nD τ).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

end Cert.KernelIdeal.Hand

end
-- ==== Proof.KI.Kept.lean ====
import proofs.«151769_j20177756357157_1_alg».proof.Proof.KI.RunW
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

theorem W1_keep (c : Dev nD) (b : Ref sig .tc) (hb : b ∉ [main_v0, main_v1, main_v2, main_v3]) :
    W1 m ρ c (Proc.devRef .tc b) = W0 m ρ c (Proc.devRef .tc b) :=
  StableHlo.after_of_writes_sub (W := [main_v0, main_v1, main_v2, main_v3]) hostOps0 (W0 m ρ c) (by
    simp only [hostOps0, List.Forall, StableHlo.reshape_writes, Finset.singleton_subset_iff, List.mem_toFinset, List.map_cons,
      List.map_nil, List.mem_cons, List.not_mem_nil, or_false, true_or, or_true, and_self]) hb

theorem W3_keep (c : Dev nD) (b : Ref sig .tc) (hb : b ∉ [main_v5]) :
    W3 m ρ c (Proc.devRef .tc b) = W2 m ρ c (Proc.devRef .tc b) :=
  StableHlo.after_of_writes_sub (W := [main_v5]) hostOps1 (W2 m ρ c) (by
    simp only [hostOps1, List.Forall, StableHlo.reshape_writes, Finset.singleton_subset_iff, List.mem_toFinset, List.map_cons,
      List.map_nil, List.mem_cons, List.not_mem_nil, or_false, true_or, or_true, and_self]) hb

theorem W6_keep (c : Dev nD) (b : Ref sig .tc) (hb : b ∉ [main_v8, main_v9]) :
    W6 m ρ c (Proc.devRef .tc b) = W5 m ρ c (Proc.devRef .tc b) :=
  StableHlo.after_of_writes_sub (W := [main_v8, main_v9]) hostOps3 (W5 m ρ c) (by
    simp only [hostOps3, List.Forall, StableHlo.reshape_writes, Finset.singleton_subset_iff, List.mem_toFinset, List.map_cons,
      List.map_nil, List.mem_cons, List.not_mem_nil, or_false, true_or, or_true, and_self]) hb

theorem W9_keep (c : Dev nD) (b : Ref sig .tc) (hb : b ∉ [main_v12, main_v13]) :
    W9 m ρ c (Proc.devRef .tc b) = W8 m ρ c (Proc.devRef .tc b) :=
  StableHlo.after_of_writes_sub (W := [main_v12, main_v13]) hostOps5 (W8 m ρ c) (by
    simp only [hostOps5, List.Forall, StableHlo.reshape_writes, Finset.singleton_subset_iff, List.mem_toFinset, List.map_cons,
      List.map_nil, List.mem_cons, List.not_mem_nil, or_false, true_or, or_true, and_self]) hb

theorem W12_keep (c : Dev nD) (b : Ref sig .tc) (hb : b ∉ [main_v16]) :
    W12 m ρ c (Proc.devRef .tc b) = W11 m ρ c (Proc.devRef .tc b) :=
  StableHlo.after_of_writes_sub (W := [main_v16]) hostOps7 (W11 m ρ c) (by
    simp only [hostOps7, List.Forall, StableHlo.reshape_writes, Finset.singleton_subset_iff, List.mem_toFinset, List.map_cons,
      List.map_nil, List.mem_cons, List.not_mem_nil, or_false, true_or, or_true, and_self]) hb

theorem W4_main_arg4 (c : Dev nD) : W4 m ρ c (Proc.devRef .tc main_arg4) = W3 m ρ c (Proc.devRef .tc main_arg4) :=
  (W4_arr m ρ c 1).trans (((dat1 (V3 m ρ) c).arrAt_in 1 rfl _).trans (A_eq1 (V3 m ρ) c 1))

theorem W5_main_arg5 (c : Dev nD) : W5 m ρ c (Proc.devRef .tc main_arg5) = W4 m ρ c (Proc.devRef .tc main_arg5) :=
  (W5_arr m ρ c 1).trans (((dat2 (V4 m ρ) c).arrAt_in 1 rfl _).trans (A_eq2 (V4 m ρ) c 1))

theorem W7_main_arg6 (c : Dev nD) : W7 m ρ c (Proc.devRef .tc main_arg6) = W6 m ρ c (Proc.devRef .tc main_arg6) :=
  (W7_arr m ρ c 1).trans (((dat3 (V6 m ρ) c).arrAt_in 1 rfl _).trans (A_eq3 (V6 m ρ) c 1))

theorem W8_main_arg7 (c : Dev nD) : W8 m ρ c (Proc.devRef .tc main_arg7) = W7 m ρ c (Proc.devRef .tc main_arg7) :=
  (W8_arr m ρ c 1).trans (((dat4 (V7 m ρ) c).arrAt_in 1 rfl _).trans (A_eq4 (V7 m ρ) c 1))

theorem W10_main_arg8 (c : Dev nD) : W10 m ρ c (Proc.devRef .tc main_arg8) = W9 m ρ c (Proc.devRef .tc main_arg8) :=
  (W10_arr m ρ c 1).trans (((dat5 (V9 m ρ) c).arrAt_in 1 rfl _).trans (A_eq5 (V9 m ρ) c 1))

theorem W11_main_arg9 (c : Dev nD) : W11 m ρ c (Proc.devRef .tc main_arg9) = W10 m ρ c (Proc.devRef .tc main_arg9) :=
  (W11_arr m ρ c 1).trans (((dat6 (V10 m ρ) c).arrAt_in 1 rfl _).trans (A_eq6 (V10 m ρ) c 1))

/-- The ten arguments of @main. -/
abbrev args : List (Ref sig .tc) :=
  [main_arg0, main_arg1, main_arg2, main_arg3, main_arg4, main_arg5, main_arg6, main_arg7, main_arg8, main_arg9]

variable (c : Dev nD) (b : Ref sig .tc) (hb : b ∈ args)
include hb

/-- After each of the twelve items an argument still holds the launch memory's contents: no host stretch writes an argument, and
    a region either does not touch it or reads it through an input window, whose array it leaves as entered. -/
theorem W1_arg : W1 m ρ c (Proc.devRef .tc b) = m ((c : Thread nD τ).loc b) := by
  simp only [args, List.mem_cons, List.not_mem_nil, or_false] at hb
  rcases hb with rfl | rfl | rfl | rfl | rfl | rfl | rfl | rfl | rfl | rfl <;> exact W1_keep m ρ c _ (by decide)
theorem W2_arg : W2 m ρ c (Proc.devRef .tc b) = m ((c : Thread nD τ).loc b) := by
  refine .trans ?_ (W1_arg m ρ c b hb)
  simp only [args, List.mem_cons, List.not_mem_nil, or_false] at hb
  rcases hb with rfl | rfl | rfl | rfl | rfl | rfl | rfl | rfl | rfl | rfl <;> exact W2_of_ne m ρ c _ (by decide)
theorem W3_arg : W3 m ρ c (Proc.devRef .tc b) = m ((c : Thread nD τ).loc b) := by
  refine .trans ?_ (W2_arg m ρ c b hb)
  simp only [args, List.mem_cons, List.not_mem_nil, or_false] at hb
  rcases hb with rfl | rfl | rfl | rfl | rfl | rfl | rfl | rfl | rfl | rfl <;> exact W3_keep m ρ c _ (by decide)
theorem W4_arg : W4 m ρ c (Proc.devRef .tc b) = m ((c : Thread nD τ).loc b) := by
  refine .trans ?_ (W3_arg m ρ c b hb)
  simp only [args, List.mem_cons, List.not_mem_nil, or_false] at hb
  rcases hb with rfl | rfl | rfl | rfl | rfl | rfl | rfl | rfl | rfl | rfl <;> first | exact W4_main_arg4 m ρ c | exact W4_of_ne m ρ c _ (by decide)
theorem W5_arg : W5 m ρ c (Proc.devRef .tc b) = m ((c : Thread nD τ).loc b) := by
  refine .trans ?_ (W4_arg m ρ c b hb)
  simp only [args, List.mem_cons, List.not_mem_nil, or_false] at hb
  rcases hb with rfl | rfl | rfl | rfl | rfl | rfl | rfl | rfl | rfl | rfl <;> first | exact W5_main_arg5 m ρ c | exact W5_of_ne m ρ c _ (by decide)
theorem W6_arg : W6 m ρ c (Proc.devRef .tc b) = m ((c : Thread nD τ).loc b) := by
  refine .trans ?_ (W5_arg m ρ c b hb)
  simp only [args, List.mem_cons, List.not_mem_nil, or_false] at hb
  rcases hb with rfl | rfl | rfl | rfl | rfl | rfl | rfl | rfl | rfl | rfl <;> exact W6_keep m ρ c _ (by decide)
theorem W7_arg : W7 m ρ c (Proc.devRef .tc b) = m ((c : Thread nD τ).loc b) := by
  refine .trans ?_ (W6_arg m ρ c b hb)
  simp only [args, List.mem_cons, List.not_mem_nil, or_false] at hb
  rcases hb with rfl | rfl | rfl | rfl | rfl | rfl | rfl | rfl | rfl | rfl <;> first | exact W7_main_arg6 m ρ c | exact W7_of_ne m ρ c _ (by decide)
theorem W8_arg : W8 m ρ c (Proc.devRef .tc b) = m ((c : Thread nD τ).loc b) := by
  refine .trans ?_ (W7_arg m ρ c b hb)
  simp only [args, List.mem_cons, List.not_mem_nil, or_false] at hb
  rcases hb with rfl | rfl | rfl | rfl | rfl | rfl | rfl | rfl | rfl | rfl <;> first | exact W8_main_arg7 m ρ c | exact W8_of_ne m ρ c _ (by decide)
theorem W9_arg : W9 m ρ c (Proc.devRef .tc b) = m ((c : Thread nD τ).loc b) := by
  refine .trans ?_ (W8_arg m ρ c b hb)
  simp only [args, List.mem_cons, List.not_mem_nil, or_false] at hb
  rcases hb with rfl | rfl | rfl | rfl | rfl | rfl | rfl | rfl | rfl | rfl <;> exact W9_keep m ρ c _ (by decide)
theorem W10_arg : W10 m ρ c (Proc.devRef .tc b) = m ((c : Thread nD τ).loc b) := by
  refine .trans ?_ (W9_arg m ρ c b hb)
  simp only [args, List.mem_cons, List.not_mem_nil, or_false] at hb
  rcases hb with rfl | rfl | rfl | rfl | rfl | rfl | rfl | rfl | rfl | rfl <;> first | exact W10_main_arg8 m ρ c | exact W10_of_ne m ρ c _ (by decide)
theorem W11_arg : W11 m ρ c (Proc.devRef .tc b) = m ((c : Thread nD τ).loc b) := by
  refine .trans ?_ (W10_arg m ρ c b hb)
  simp only [args, List.mem_cons, List.not_mem_nil, or_false] at hb
  rcases hb with rfl | rfl | rfl | rfl | rfl | rfl | rfl | rfl | rfl | rfl <;> first | exact W11_main_arg9 m ρ c | exact W11_of_ne m ρ c _ (by decide)
theorem W12_arg : W12 m ρ c (Proc.devRef .tc b) = m ((c : Thread nD τ).loc b) := by
  refine .trans ?_ (W11_arg m ρ c b hb)
  simp only [args, List.mem_cons, List.not_mem_nil, or_false] at hb
  rcases hb with rfl | rfl | rfl | rfl | rfl | rfl | rfl | rfl | rfl | rfl <;> exact W12_keep m ρ c _ (by decide)

end Cert.KernelIdeal.Hand

end
-- ==== Proof.KI.MvKern.lean ====
import proofs.«151769_j20177756357157_1_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

def xblk (v : Vec F S1x4096 .f32) (kk : Fin 4) : Vec F S1x1024 .f32 :=
  fun y => v (ix2 (0 : Fin 1) (⟨kk.val * 1024 + (y 1).val, by have h : (y 1).val < 1024 := (y 1).isLt; have := kk.isLt; show _ < 4096; omega⟩ : Fin 4096))

def wblk (W : Vec F S4096x4096 .f32) (kk n : Fin 4) : Vec F S1024x1024 .f32 :=
  fun y => W (ix2 (⟨kk.val * 1024 + (y 0).val, by have h : (y 0).val < 1024 := (y 0).isLt; have := kk.isLt; show _ < 4096; omega⟩ : Fin 4096)
    (⟨n.val * 1024 + (y 1).val, by have h : (y 1).val < 1024 := (y 1).isLt; have := n.isLt; show _ < 4096; omega⟩ : Fin 4096))

def accTile (v : Vec F S1x4096 .f32) (W : Vec F S4096x4096 .f32) (n : Fin 4) : ℕ → Vec F S1x1024 .f32
  | 0 => k1_pay2 (xblk v 0) (wblk W 0 n) k1_pay1
  | kk + 1 => k1_pay2 (xblk v ⟨(kk + 1) % 4, Nat.mod_lt _ (by decide)⟩) (wblk W ⟨(kk + 1) % 4, Nat.mod_lt _ (by decide)⟩ n) (accTile v W n kk)

def mvKern (v : Vec F S1x4096 .f32) (W : Vec F S4096x4096 .f32) : Vec F S1x4096 .f32 :=
  fun i => k1_pay3 (accTile v W ⟨(i 1).val / 1024, by have h : (i 1).val < 4096 := (i 1).isLt; show _ / 1024 < 4; omega⟩ 3)
    (ix2 (0 : Fin 1) (⟨(i 1).val % 1024, Nat.mod_lt _ (by decide)⟩ : Fin 1024))

end Cert.KernelIdeal.Hand

end
-- ==== Proof.KI.Val0.lean ====
import proofs.«151769_j20177756357157_1_alg».proof.Proof.Gen.KernelIdeal.Launch
import proofs.«151769_j20177756357157_1_alg».proof.Proof.Gen.KernelIdeal.Skeleton
import proofs.«151769_j20177756357157_1_alg».proof.Proof.Gen.KernelIdeal.Points
import proofs.«151769_j20177756357157_1_alg».proof.Proof.KI.Reg0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz0 : (![0, 0] : Fin 2 → Nat) = fun _ => 0 := funext fun a => by fin_cases a <;> rfl

theorem iblk0_0_eq (c : Dev nD) (t : Fin cfg0.N) : (iblk0 V c 0 t : Vec F S64x256 .f32) = V c main_v3 := by
  obtain rfl := fin_N0 t
  have hz' : (fun a => win0_0.index t0_0 a * main_v3.ty.shape.size a) = fun _ => 0 := funext fun a => by fin_cases a <;> decide
  exact Memref.read_access_unit_zero (Elt F) main_v3 hz' (fun a => by rw [congrFun hz' a]; simp) (V c main_v3)

theorem iblk0_1_eq (c : Dev nD) (t : Fin cfg0.N) : (iblk0 V c 1 t : Vec F S64x64 .f32) = V c main_v0 := by
  obtain rfl := fin_N0 t
  have hz' : (fun a => win0_1.index t0_0 a * main_v0.ty.shape.size a) = fun _ => 0 := funext fun a => by fin_cases a <;> decide
  exact Memref.read_access_unit_zero (Elt F) main_v0 hz' (fun a => by rw [congrFun hz' a]; simp) (V c main_v0)

theorem iblk0_2_eq (c : Dev nD) (t : Fin cfg0.N) : (iblk0 V c 2 t : Vec F S64x64 .f32) = V c main_v1 := by
  obtain rfl := fin_N0 t
  have hz' : (fun a => win0_2.index t0_0 a * main_v1.ty.shape.size a) = fun _ => 0 := funext fun a => by fin_cases a <;> decide
  exact Memref.read_access_unit_zero (Elt F) main_v1 hz' (fun a => by rw [congrFun hz' a]; simp) (V c main_v1)

theorem iblk0_3_eq (c : Dev nD) (t : Fin cfg0.N) : (iblk0 V c 3 t : Vec F S64x64 .f32) = V c main_v2 := by
  obtain rfl := fin_N0 t
  have hz' : (fun a => win0_3.index t0_0 a * main_v2.ty.shape.size a) = fun _ => 0 := funext fun a => by fin_cases a <;> decide
  exact Memref.read_access_unit_zero (Elt F) main_v2 hz' (fun a => by rw [congrFun hz' a]; simp) (V c main_v2)

theorem flushed0_4_eq (c : Dev nD) (t : Fin cfg0.N) :
    (dat0 V c).flushed 4 t = ((cfg0.win 4).blk t).view.read (Elt F) (k0_pay2 (F := F) (V c main_v3) (V c main_v0)) := by
  show (cfg0.win 4).cut (grid0.coords t) ((dat0 V c).after 4 t) = _
  rw [after0_4]
  unfold out0_4
  rw [View.canon_unit_zero hz0]
  simp only [View.ld_unit_zero (S := S64x256) hz0, View.ld_unit_zero (S := S64x64) hz0]
  rw [iblk0_0_eq, iblk0_1_eq]
  obtain rfl := fin_N0 t
  have hz' : (fun a => win0_4.index t0_0 a * main_v4_0.ty.shape.size a) = fun _ => 0 := funext fun a => by fin_cases a <;> decide
  exact (Memref.read_access_unit_zero (Elt F) main_v4_0 hz' (fun a => by rw [congrFun hz' a]; simp) _).symm

theorem cover0_4_arr (i : S64x64.Idx) : ∃ t : Fin cfg0.N, (cfg0.win 4).flush t = true ∧ i ∈ ((cfg0.win 4).blk t).view.set := by
  refine ⟨t0_0, flush0_4 t0_0, ?_⟩
  show i ∈ ((View.whole main_v4_0).slice (win0_4.rect t0_0)).set
  rw [View.set_slice_whole, Rect.mem_set_unit]
  intro a
  have h0 : (i 0 : Nat) < 64 := (i 0).isLt
  have h1 : (i 1 : Nat) < 64 := (i 1).isLt
  have hoff : ∀ b, win0_4.index t0_0 b * win0_4.size b = 0 := fun b => by fin_cases b <;> decide
  match a with
  | ⟨0, _⟩ =>
    show win0_4.index t0_0 0 * win0_4.size 0 ≤ (i 0 : Nat) ∧ (i 0 : Nat) < win0_4.index t0_0 0 * win0_4.size 0 + 64
    rw [hoff 0]; omega
  | ⟨1, _⟩ =>
    show win0_4.index t0_0 1 * win0_4.size 1 ≤ (i 1 : Nat) ∧ (i 1 : Nat) < win0_4.index t0_0 1 * win0_4.size 1 + 64
    rw [hoff 1]; omega

theorem arrAt0_4 (c : Dev nD) (i : S64x64.Idx) :
    (dat0 V c).arrAt 4 cfg0.N i = k0_pay2 (F := F) (V c main_v3) (V c main_v0) i :=
  congrFun ((dat0 V c).arrAt_eq_of_cover 4 (k0_pay2 (F := F) (V c main_v3) (V c main_v0))
    (fun t _ => flushed0_4_eq V c t) (cover0_4_arr)) i

theorem flushed0_5_eq (c : Dev nD) (t : Fin cfg0.N) :
    (dat0 V c).flushed 5 t = ((cfg0.win 5).blk t).view.read (Elt F) (k0_pay3 (F := F) (V c main_v3) (V c main_v1)) := by
  show (cfg0.win 5).cut (grid0.coords t) ((dat0 V c).after 5 t) = _
  rw [after0_5]
  unfold out0_5
  rw [View.canon_unit_zero hz0]
  simp only [View.ld_unit_zero (S := S64x256) hz0, View.ld_unit_zero (S := S64x64) hz0]
  rw [iblk0_0_eq, iblk0_2_eq]
  obtain rfl := fin_N0 t
  have hz' : (fun a => win0_5.index t0_0 a * main_v4_1.ty.shape.size a) = fun _ => 0 := funext fun a => by fin_cases a <;> decide
  exact (Memref.read_access_unit_zero (Elt F) main_v4_1 hz' (fun a => by rw [congrFun hz' a]; simp) _).symm

theorem cover0_5_arr (i : S64x64.Idx) : ∃ t : Fin cfg0.N, (cfg0.win 5).flush t = true ∧ i ∈ ((cfg0.win 5).blk t).view.set := by
  refine ⟨t0_0, flush0_5 t0_0, ?_⟩
  show i ∈ ((View.whole main_v4_1).slice (win0_5.rect t0_0)).set
  rw [View.set_slice_whole, Rect.mem_set_unit]
  intro a
  have h0 : (i 0 : Nat) < 64 := (i 0).isLt
  have h1 : (i 1 : Nat) < 64 := (i 1).isLt
  have hoff : ∀ b, win0_5.index t0_0 b * win0_5.size b = 0 := fun b => by fin_cases b <;> decide
  match a with
  | ⟨0, _⟩ =>
    show win0_5.index t0_0 0 * win0_5.size 0 ≤ (i 0 : Nat) ∧ (i 0 : Nat) < win0_5.index t0_0 0 * win0_5.size 0 + 64
    rw [hoff 0]; omega
  | ⟨1, _⟩ =>
    show win0_5.index t0_0 1 * win0_5.size 1 ≤ (i 1 : Nat) ∧ (i 1 : Nat) < win0_5.index t0_0 1 * win0_5.size 1 + 64
    rw [hoff 1]; omega

theorem arrAt0_5 (c : Dev nD) (i : S64x64.Idx) :
    (dat0 V c).arrAt 5 cfg0.N i = k0_pay3 (F := F) (V c main_v3) (V c main_v1) i :=
  congrFun ((dat0 V c).arrAt_eq_of_cover 5 (k0_pay3 (F := F) (V c main_v3) (V c main_v1))
    (fun t _ => flushed0_5_eq V c t) (cover0_5_arr)) i

theorem flushed0_6_eq (c : Dev nD) (t : Fin cfg0.N) :
    (dat0 V c).flushed 6 t = ((cfg0.win 6).blk t).view.read (Elt F) (k0_pay4 (F := F) (V c main_v3) (V c main_v2)) := by
  show (cfg0.win 6).cut (grid0.coords t) ((dat0 V c).after 6 t) = _
  rw [after0_6]
  unfold out0_6
  rw [View.canon_unit_zero hz0]
  simp only [View.ld_unit_zero (S := S64x256) hz0, View.ld_unit_zero (S := S64x64) hz0]
  rw [iblk0_0_eq, iblk0_3_eq]
  obtain rfl := fin_N0 t
  have hz' : (fun a => win0_6.index t0_0 a * main_v4_2.ty.shape.size a) = fun _ => 0 := funext fun a => by fin_cases a <;> decide
  exact (Memref.read_access_unit_zero (Elt F) main_v4_2 hz' (fun a => by rw [congrFun hz' a]; simp) _).symm

theorem cover0_6_arr (i : S64x64.Idx) : ∃ t : Fin cfg0.N, (cfg0.win 6).flush t = true ∧ i ∈ ((cfg0.win 6).blk t).view.set := by
  refine ⟨t0_0, flush0_6 t0_0, ?_⟩
  show i ∈ ((View.whole main_v4_2).slice (win0_6.rect t0_0)).set
  rw [View.set_slice_whole, Rect.mem_set_unit]
  intro a
  have h0 : (i 0 : Nat) < 64 := (i 0).isLt
  have h1 : (i 1 : Nat) < 64 := (i 1).isLt
  have hoff : ∀ b, win0_6.index t0_0 b * win0_6.size b = 0 := fun b => by fin_cases b <;> decide
  match a with
  | ⟨0, _⟩ =>
    show win0_6.index t0_0 0 * win0_6.size 0 ≤ (i 0 : Nat) ∧ (i 0 : Nat) < win0_6.index t0_0 0 * win0_6.size 0 + 64
    rw [hoff 0]; omega
  | ⟨1, _⟩ =>
    show win0_6.index t0_0 1 * win0_6.size 1 ≤ (i 1 : Nat) ∧ (i 1 : Nat) < win0_6.index t0_0 1 * win0_6.size 1 + 64
    rw [hoff 1]; omega

theorem arrAt0_6 (c : Dev nD) (i : S64x64.Idx) :
    (dat0 V c).arrAt 6 cfg0.N i = k0_pay4 (F := F) (V c main_v3) (V c main_v2) i :=
  congrFun ((dat0 V c).arrAt_eq_of_cover 6 (k0_pay4 (F := F) (V c main_v3) (V c main_v2))
    (fun t _ => flushed0_6_eq V c t) (cover0_6_arr)) i

end Cert.KernelIdeal.Hand

end
-- ==== Proof.KI.MvPiece.lean ====
import proofs.«151769_j20177756357157_1_alg».proof.Proof.KI.MvPoint
import proofs.«151769_j20177756357157_1_alg».proof.Proof.KI.MvKern
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

theorem offs0 : (![0, 0] : Fin 2 → Nat) = fun _ => 0 := funext fun a => by fin_cases a <;> rfl

/-- The output row at a column of tile `col` is that tile's clamped accumulator at the column inside the tile. -/
theorem mvKern_col (v : Vec F S1x4096 .f32) (W : Vec F S4096x4096 .f32) (i : S1x4096.Idx) (col : Fin 4) (y : S1x1024.Idx)
    (h : (i 1).val = col.val * 1024 + (y 1).val) : mvKern v W i = k1_pay3 (accTile v W col 3) y := by
  have hya : (y 0).val < 1 := (y 0).isLt
  have hyb : (y 1).val < 1024 := (y 1).isLt
  have ediv : (i 1).val / 1024 = col.val := by omega
  have emod : (i 1).val % 1024 = (y 1).val := by omega
  have hy : ix2 (0 : Fin 1) (⟨(i 1).val % 1024, Nat.mod_lt _ (by decide)⟩ : Fin 1024) = y :=
    funext fun a => match a with
      | ⟨0, _⟩ => Fin.ext (by show 0 = (y 0).val; omega)
      | ⟨1, _⟩ => Fin.ext emod
  unfold mvKern
  exact congr (congrArg k1_pay3 (congrArg (fun n => accTile v W n 3) (Fin.ext ediv))) hy

variable (c : Dev nD) (i : grid1.Coords) (arg2 : Memref sig .tc .vmem S1x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x1024 .f32) (harg5 : arg5.IsWhole)

/-- A first row tile leaves the first partial product added to the zero it stored. -/
theorem mvAccA_eq (hc0 : mvFirst i) (hc1 : ¬mvLast i) (x0 : Vec F S1x1024 .f32) (x1 : Vec F S1024x1024 .f32) :
    (mvStepA c i arg2 harg2 arg3 harg3 arg4 harg4 arg5 harg5 hc0 hc1 x0 x1).2 = k1_pay2 x0 x1 k1_pay1 := by
  unfold mvStepA mvLeft; dsimp only
  rw [View.read_writes_eq_canon _ _ _ (mvAccA_cover c i arg2 harg2 arg3 harg3 arg4 harg4 arg5 harg5 hc0 hc1 x0 x1)]
  unfold mvRunA
  dsimp only
  sl_unfold_words
  rw [View.canon_cons_unit_zero (S := S1x1024) offs0, View.readCov_unit_zero (S := S1x1024) _ offs0]
  simp only [View.readAt_eq_ld, harg2.read_unread, harg3.read_unread, View.ld_unit_zero (S := S1x1024) offs0, View.ld_unit_zero (S := S1024x1024) offs0]
  first | rfl | done

/-- A middle row tile adds one more partial product to the accumulator. -/
theorem mvAccB_eq (hc0 : ¬mvFirst i) (hc1 : ¬mvLast i) (x0 : Vec F S1x1024 .f32) (x1 : Vec F S1024x1024 .f32) (xs0 : Vec F S1x1024 .f32) :
    (mvStepB c i arg2 harg2 arg3 harg3 arg4 harg4 arg5 harg5 hc0 hc1 x0 x1 xs0).2 = k1_pay2 x0 x1 xs0 := by
  unfold mvStepB mvLeft; dsimp only
  rw [View.read_writes_eq_canon _ _ _ (mvAccB_cover c i arg2 harg2 arg3 harg3 arg4 harg4 arg5 harg5 hc0 hc1 x0 x1 xs0)]
  unfold mvRunB
  dsimp only
  sl_unfold_words
  rw [View.canon_unit_zero offs0]
  simp only [View.readAt_eq_ld, harg2.read_unread, harg3.read_unread, harg5.read_unread, View.ld_unit_zero (S := S1x1024) offs0, View.ld_unit_zero (S := S1024x1024) offs0]
  first | rfl | done

/-- So does a last row tile … -/
theorem mvAccC_eq (hc0 : ¬mvFirst i) (hc1 : mvLast i) (x0 : Vec F S1x1024 .f32) (x1 : Vec F S1024x1024 .f32) (xs0 : Vec F S1x1024 .f32) :
    (mvStepC c i arg2 harg2 arg3 harg3 arg4 harg4 arg5 harg5 hc0 hc1 x0 x1 xs0).2 = k1_pay2 x0 x1 xs0 := by
  unfold mvStepC mvLeft; dsimp only
  rw [View.read_writes_eq_canon _ _ _ (mvAccC_cover c i arg2 harg2 arg3 harg3 arg4 harg4 arg5 harg5 hc0 hc1 x0 x1 xs0)]
  unfold mvRunC
  dsimp only
  sl_unfold_words
  rw [View.canon_unit_zero offs0]
  simp only [View.readAt_eq_ld, harg2.read_unread, harg3.read_unread, harg5.read_unread, View.ld_unit_zero (S := S1x1024) offs0, View.ld_unit_zero (S := S1024x1024) offs0]
  first | rfl | done

/-- … which also stores the accumulator, clamped below at zero, into the output tile. -/
theorem mvOutC_eq (hc0 : ¬mvFirst i) (hc1 : mvLast i) (x0 : Vec F S1x1024 .f32) (x1 : Vec F S1024x1024 .f32) (xs0 : Vec F S1x1024 .f32) :
    (mvStepC c i arg2 harg2 arg3 harg3 arg4 harg4 arg5 harg5 hc0 hc1 x0 x1 xs0).1 = k1_pay3 (k1_pay2 x0 x1 xs0) := by
  unfold mvStepC mvLeft; dsimp only
  rw [View.read_writes_eq_canon _ _ _ (mvOutC_cover c i arg2 harg2 arg3 harg3 arg4 harg4 arg5 harg5 hc0 hc1 x0 x1 xs0)]
  unfold mvRunC
  dsimp only
  sl_unfold_words
  rw [View.canon_unit_zero offs0]
  simp only [View.readCov_unit_zero (S := S1x1024) _ offs0, View.readAt_eq_ld, harg2.read_unread, harg3.read_unread, harg5.read_unread, View.ld_unit_zero (S := S1x1024) offs0, View.ld_unit_zero (S := S1024x1024) offs0]
  first | rfl | done

section value
variable (o : MvOps F) (v : Vec F S1x4096 .f32) (W : Vec F S4096x4096 .f32)
  (hx0 : ∀ n hn (kk : Fin 4), kk.val = n % 4 → o.x0 n hn = xblk v kk)
  (hx1 : ∀ n hn (kk col : Fin 4), kk.val = n % 4 → col.val = n / 4 → o.x1 n hn = wblk W kk col)
include hx0 hx1

/-- When the input tiles at position n = 4 col + kk are tile kk of the row and tile (kk, col) of the matrix, the
    accumulator after position n is column tile col of the product summed over the row tiles 0 … kk. -/
theorem mvInv (n : ℕ) : ∀ (hn : n < 16) (col : Fin 4) (hcol : col.val = n / 4),
    (mvOutsAt o c n hn).2 = accTile v W col (n % 4) := by
  induction n using Nat.strong_induction_on with
  | _ n ih =>
    intro hn col hcol
    obtain ⟨kk, hkk⟩ : ∃ kk : Fin 4, kk.val = n % 4 := ⟨⟨n % 4, Nat.mod_lt _ (by decide)⟩, rfl⟩
    by_cases h0 : n % 4 = 0
    · rw [mvOutsAt_A o c n hn h0]
      unfold mvAtA
      refine (mvAccA_eq c _ _ _ _ _ _ _ _ _ _ _ _ _).trans ?_
      rw [hx0 n hn kk hkk, hx1 n hn kk col hkk hcol, h0]
      obtain rfl : kk = 0 := Fin.ext (hkk.trans h0)
      rfl
    · obtain ⟨k, hk⟩ : ∃ k, n % 4 = k + 1 := ⟨n % 4 - 1, by omega⟩
      have hk' : (n - 1) % 4 = k := by omega
      have hprev := ih (n - 1) (by omega) (Nat.lt_of_le_of_lt (Nat.sub_le _ _) hn) col (by omega)
      rw [hk'] at hprev
      have hkk' : kk = ⟨(k + 1) % 4, Nat.mod_lt _ (by decide)⟩ := Fin.ext (by show kk.val = (k + 1) % 4; omega)
      by_cases h3 : n % 4 = 3
      · rw [mvOutsAt_C o c n hn h0 h3]
        unfold mvAtC
        refine (mvAccC_eq c _ _ _ _ _ _ _ _ _ _ _ _ _ _).trans ?_
        rw [hx0 n hn kk hkk, hx1 n hn kk col hkk hcol, hprev, hk, hkk']
        rfl
      · rw [mvOutsAt_B o c n hn h0 h3]
        unfold mvAtB
        refine (mvAccB_eq c _ _ _ _ _ _ _ _ _ _ _ _ _ _).trans ?_
        rw [hx0 n hn kk hkk, hx1 n hn kk col hkk hcol, hprev, hk, hkk']
        rfl

/-- At a last row tile the output tile holds the accumulator after all four row tiles, clamped below at zero. -/
theorem mvLastOut (n : ℕ) (hn : n < 16) (h3 : n % 4 = 3) (col : Fin 4) (hcol : col.val = n / 4) :
    (mvOutsAt o c n hn).1 = k1_pay3 (accTile v W col 3) := by
  have h0 : ¬n % 4 = 0 := by omega
  have eacc := mvInv c o v W hx0 hx1 n hn col hcol
  rw [h3] at eacc
  rw [← eacc, mvOutsAt_C o c n hn h0 h3]
  unfold mvAtC
  exact (mvOutC_eq c _ _ _ _ _ _ _ _ _ _ _ _ _ _).trans (congrArg k1_pay3 (mvAccC_eq c _ _ _ _ _ _ _ _ _ _ _ _ _ _).symm)
end value

end Cert.KernelIdeal.Hand

end
-- ==== Proof.KI.Val1.lean ====
import proofs.«151769_j20177756357157_1_alg».proof.Proof.KI.Reg1
import proofs.«151769_j20177756357157_1_alg».proof.Proof.KI.MvPiece

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tile1_idx : ∀ t : Fin cfg1.N, win1_0.index t 0 = 0 ∧ win1_0.index t 1 = t.val % 4
    ∧ win1_1.index t 0 = t.val % 4 ∧ win1_1.index t 1 = t.val / 4
    ∧ win1_2.index t 0 = 0 ∧ win1_2.index t 1 = t.val / 4 :=
  (by decide +kernel : ∀ t : Fin grid1.N, win1_0.index t 0 = 0 ∧ win1_0.index t 1 = t.val % 4
    ∧ win1_1.index t 0 = t.val % 4 ∧ win1_1.index t 1 = t.val / 4
    ∧ win1_2.index t 0 = 0 ∧ win1_2.index t 1 = t.val / 4)

theorem blk1_0 (c : Dev nD) (t : Fin cfg1.N) (kk : Fin 4) (hkk : kk.val = t.val % 4) :
    (iblk1 V c 0 t : Vec F S1x1024 .f32) = xblk (V c (Pipeline.arrRef spec1 0) : Vec F S1x4096 .f32) kk := by
  obtain ⟨ea, eb, -⟩ := tile1_idx t
  funext y
  unfold iblk1 xblk
  rw [View.read_apply]
  refine congrArg (V c (Pipeline.arrRef spec1 0)) (funext fun a => Fin.ext ?_)
  have hya : (y 0).val < 1 := (y 0).isLt
  have hyb : (y 1).val < 1024 := (y 1).isLt
  match a with
  | ⟨0, _⟩ => show win1_0.index t 0 * 1 + 1 * (y 0).val = 0; rw [ea]; omega
  | ⟨1, _⟩ => show win1_0.index t 1 * 1024 + 1 * (y 1).val = kk.val * 1024 + (y 1).val; rw [eb, hkk]; omega

theorem blk1_1 (c : Dev nD) (t : Fin cfg1.N) (kk n : Fin 4) (hkk : kk.val = t.val % 4) (hn : n.val = t.val / 4) :
    (iblk1 V c 1 t : Vec F S1024x1024 .f32) = wblk (V c (Pipeline.arrRef spec1 1) : Vec F S4096x4096 .f32) kk n := by
  obtain ⟨-, -, ea, eb, -⟩ := tile1_idx t
  funext y
  unfold iblk1 wblk
  rw [View.read_apply]
  refine congrArg (V c (Pipeline.arrRef spec1 1)) (funext fun a => Fin.ext ?_)
  have hya : (y 0).val < 1024 := (y 0).isLt
  have hyb : (y 1).val < 1024 := (y 1).isLt
  match a with
  | ⟨0, _⟩ => show win1_1.index t 0 * 1024 + 1 * (y 0).val = kk.val * 1024 + (y 0).val; rw [ea, hkk]; omega
  | ⟨1, _⟩ => show win1_1.index t 1 * 1024 + 1 * (y 1).val = n.val * 1024 + (y 1).val; rw [eb, hn]; omega

abbrev val1_0 (c : Dev nD) : Vec F S1x4096 .f32 := V c (Pipeline.arrRef spec1 0)

abbrev val1_1 (c : Dev nD) : Vec F S4096x4096 .f32 := V c (Pipeline.arrRef spec1 1)

theorem flushed1_2 (c : Dev nD) (t : Fin cfg1.N) (hf : (cfg1.win 2).flush t = true) :
    (dat1 V c).flushed 2 t = ((cfg1.win 2).blk t).view.read (Elt F) (mvKern (val1_0 V c) (val1_1 V c)) := by
  have h3 : t.val % 4 = 3 := (flush1_2 t).mp hf
  have hN : t.val < 16 := lt_of_lt_of_eq t.isLt (show cfg1.N = 16 from N_1)
  obtain ⟨-, -, -, -, ea, eb⟩ := tile1_idx t
  show (cfg1.win 2).cut (grid1.coords t) ((dat1 V c).after 2 t) = _
  rw [after1_2, mvLastOut c (ops1 V c) (val1_0 V c) (val1_1 V c) (fun n hn kk hkk => blk1_0 V c ⟨n, hn⟩ kk hkk)
    (fun n hn kk col hkk hcol => blk1_1 V c ⟨n, hn⟩ kk col hkk hcol) t.val t.isLt h3 ⟨t.val / 4, by omega⟩ rfl]
  funext y
  rw [View.read_apply]
  have hyb : (y 1).val < 1024 := (y 1).isLt
  exact (mvKern_col (val1_0 V c) (val1_1 V c) (((cfg1.win 2).blk t).view.emb y) ⟨t.val / 4, by omega⟩ y (by
    show win1_2.index t 1 * 1024 + 1 * (y 1).val = t.val / 4 * 1024 + (y 1).val
    rw [eb]; omega)).symm

theorem cover_pt1 (i : S1x4096.Idx) : ∃ t : Fin cfg1.N, (cfg1.win 2).flush t = true ∧ i ∈ ((cfg1.win 2).blk t).view.set := by
  have hia : (i 0).val < 1 := (i 0).isLt
  have hib : (i 1).val < 4096 := (i 1).isLt
  have hpt : 4 * ((i 1).val / 1024) + 3 < cfg1.N := lt_of_lt_of_eq (by omega) (show cfg1.N = 16 from N_1).symm
  refine ⟨⟨4 * ((i 1).val / 1024) + 3, hpt⟩, (flush1_2 _).mpr (by show (4 * ((i 1).val / 1024) + 3) % 4 = 3; omega), ?_⟩
  obtain ⟨-, -, -, -, ea, eb⟩ := tile1_idx ⟨4 * ((i 1).val / 1024) + 3, hpt⟩
  show i ∈ ((View.whole (Pipeline.arrRef spec1 2)).slice (win1_2.rect ⟨4 * ((i 1).val / 1024) + 3, hpt⟩)).set
  rw [View.set_slice_whole, Rect.mem_set_unit]
  intro a
  match a with
  | ⟨0, _⟩ =>
    show win1_2.index ⟨4 * ((i 1).val / 1024) + 3, hpt⟩ 0 * 1 ≤ (i 0).val ∧ (i 0).val < win1_2.index ⟨4 * ((i 1).val / 1024) + 3, hpt⟩ 0 * 1 + 1
    rw [ea]; omega
  | ⟨1, _⟩ =>
    show win1_2.index ⟨4 * ((i 1).val / 1024) + 3, hpt⟩ 1 * 1024 ≤ (i 1).val ∧ (i 1).val < win1_2.index ⟨4 * ((i 1).val / 1024) + 3, hpt⟩ 1 * 1024 + 1024
    rw [eb]
    show (4 * ((i 1).val / 1024) + 3) / 4 * 1024 ≤ (i 1).val ∧ (i 1).val < (4 * ((i 1).val / 1024) + 3) / 4 * 1024 + 1024
    omega

theorem final1 (c : Dev nD) : (dat1 V c).arrAt 2 cfg1.N = mvKern (val1_0 V c) (val1_1 V c) :=
  (dat1 V c).arrAt_eq_of_cover 2 (mvKern (val1_0 V c) (val1_1 V c)) (flushed1_2 V c) cover_pt1

end Cert.KernelIdeal.Hand

end
-- ==== Proof.KI.Val2.lean ====
import proofs.«151769_j20177756357157_1_alg».proof.Proof.KI.Reg2
import proofs.«151769_j20177756357157_1_alg».proof.Proof.KI.MvPiece

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tile2_idx : ∀ t : Fin cfg2.N, win2_0.index t 0 = 0 ∧ win2_0.index t 1 = t.val % 4
    ∧ win2_1.index t 0 = t.val % 4 ∧ win2_1.index t 1 = t.val / 4
    ∧ win2_2.index t 0 = 0 ∧ win2_2.index t 1 = t.val / 4 :=
  (by decide +kernel : ∀ t : Fin grid2.N, win2_0.index t 0 = 0 ∧ win2_0.index t 1 = t.val % 4
    ∧ win2_1.index t 0 = t.val % 4 ∧ win2_1.index t 1 = t.val / 4
    ∧ win2_2.index t 0 = 0 ∧ win2_2.index t 1 = t.val / 4)

theorem blk2_0 (c : Dev nD) (t : Fin cfg2.N) (kk : Fin 4) (hkk : kk.val = t.val % 4) :
    (iblk2 V c 0 t : Vec F S1x1024 .f32) = xblk (V c (Pipeline.arrRef spec2 0) : Vec F S1x4096 .f32) kk := by
  obtain ⟨ea, eb, -⟩ := tile2_idx t
  funext y
  unfold iblk2 xblk
  rw [View.read_apply]
  refine congrArg (V c (Pipeline.arrRef spec2 0)) (funext fun a => Fin.ext ?_)
  have hya : (y 0).val < 1 := (y 0).isLt
  have hyb : (y 1).val < 1024 := (y 1).isLt
  match a with
  | ⟨0, _⟩ => show win2_0.index t 0 * 1 + 1 * (y 0).val = 0; rw [ea]; omega
  | ⟨1, _⟩ => show win2_0.index t 1 * 1024 + 1 * (y 1).val = kk.val * 1024 + (y 1).val; rw [eb, hkk]; omega

theorem blk2_1 (c : Dev nD) (t : Fin cfg2.N) (kk n : Fin 4) (hkk : kk.val = t.val % 4) (hn : n.val = t.val / 4) :
    (iblk2 V c 1 t : Vec F S1024x1024 .f32) = wblk (V c (Pipeline.arrRef spec2 1) : Vec F S4096x4096 .f32) kk n := by
  obtain ⟨-, -, ea, eb, -⟩ := tile2_idx t
  funext y
  unfold iblk2 wblk
  rw [View.read_apply]
  refine congrArg (V c (Pipeline.arrRef spec2 1)) (funext fun a => Fin.ext ?_)
  have hya : (y 0).val < 1024 := (y 0).isLt
  have hyb : (y 1).val < 1024 := (y 1).isLt
  match a with
  | ⟨0, _⟩ => show win2_1.index t 0 * 1024 + 1 * (y 0).val = kk.val * 1024 + (y 0).val; rw [ea, hkk]; omega
  | ⟨1, _⟩ => show win2_1.index t 1 * 1024 + 1 * (y 1).val = n.val * 1024 + (y 1).val; rw [eb, hn]; omega

abbrev val2_0 (c : Dev nD) : Vec F S1x4096 .f32 := V c (Pipeline.arrRef spec2 0)

abbrev val2_1 (c : Dev nD) : Vec F S4096x4096 .f32 := V c (Pipeline.arrRef spec2 1)

theorem flushed2_2 (c : Dev nD) (t : Fin cfg2.N) (hf : (cfg2.win 2).flush t = true) :
    (dat2 V c).flushed 2 t = ((cfg2.win 2).blk t).view.read (Elt F) (mvKern (val2_0 V c) (val2_1 V c)) := by
  have h3 : t.val % 4 = 3 := (flush2_2 t).mp hf
  have hN : t.val < 16 := lt_of_lt_of_eq t.isLt (show cfg2.N = 16 from N_2)
  obtain ⟨-, -, -, -, ea, eb⟩ := tile2_idx t
  show (cfg2.win 2).cut (grid2.coords t) ((dat2 V c).after 2 t) = _
  rw [after2_2, mvLastOut c (ops2 V c) (val2_0 V c) (val2_1 V c) (fun n hn kk hkk => blk2_0 V c ⟨n, hn⟩ kk hkk)
    (fun n hn kk col hkk hcol => blk2_1 V c ⟨n, hn⟩ kk col hkk hcol) t.val t.isLt h3 ⟨t.val / 4, by omega⟩ rfl]
  funext y
  rw [View.read_apply]
  have hyb : (y 1).val < 1024 := (y 1).isLt
  exact (mvKern_col (val2_0 V c) (val2_1 V c) (((cfg2.win 2).blk t).view.emb y) ⟨t.val / 4, by omega⟩ y (by
    show win2_2.index t 1 * 1024 + 1 * (y 1).val = t.val / 4 * 1024 + (y 1).val
    rw [eb]; omega)).symm

theorem cover_pt2 (i : S1x4096.Idx) : ∃ t : Fin cfg2.N, (cfg2.win 2).flush t = true ∧ i ∈ ((cfg2.win 2).blk t).view.set := by
  have hia : (i 0).val < 1 := (i 0).isLt
  have hib : (i 1).val < 4096 := (i 1).isLt
  have hpt : 4 * ((i 1).val / 1024) + 3 < cfg2.N := lt_of_lt_of_eq (by omega) (show cfg2.N = 16 from N_2).symm
  refine ⟨⟨4 * ((i 1).val / 1024) + 3, hpt⟩, (flush2_2 _).mpr (by show (4 * ((i 1).val / 1024) + 3) % 4 = 3; omega), ?_⟩
  obtain ⟨-, -, -, -, ea, eb⟩ := tile2_idx ⟨4 * ((i 1).val / 1024) + 3, hpt⟩
  show i ∈ ((View.whole (Pipeline.arrRef spec2 2)).slice (win2_2.rect ⟨4 * ((i 1).val / 1024) + 3, hpt⟩)).set
  rw [View.set_slice_whole, Rect.mem_set_unit]
  intro a
  match a with
  | ⟨0, _⟩ =>
    show win2_2.index ⟨4 * ((i 1).val / 1024) + 3, hpt⟩ 0 * 1 ≤ (i 0).val ∧ (i 0).val < win2_2.index ⟨4 * ((i 1).val / 1024) + 3, hpt⟩ 0 * 1 + 1
    rw [ea]; omega
  | ⟨1, _⟩ =>
    show win2_2.index ⟨4 * ((i 1).val / 1024) + 3, hpt⟩ 1 * 1024 ≤ (i 1).val ∧ (i 1).val < win2_2.index ⟨4 * ((i 1).val / 1024) + 3, hpt⟩ 1 * 1024 + 1024
    rw [eb]
    show (4 * ((i 1).val / 1024) + 3) / 4 * 1024 ≤ (i 1).val ∧ (i 1).val < (4 * ((i 1).val / 1024) + 3) / 4 * 1024 + 1024
    omega

theorem final2 (c : Dev nD) : (dat2 V c).arrAt 2 cfg2.N = mvKern (val2_0 V c) (val2_1 V c) :=
  (dat2 V c).arrAt_eq_of_cover 2 (mvKern (val2_0 V c) (val2_1 V c)) (flushed2_2 V c) cover_pt2

end Cert.KernelIdeal.Hand

end
-- ==== Proof.KI.Val3.lean ====
import proofs.«151769_j20177756357157_1_alg».proof.Proof.KI.Reg3
import proofs.«151769_j20177756357157_1_alg».proof.Proof.KI.MvPiece

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tile3_idx : ∀ t : Fin cfg3.N, win3_0.index t 0 = 0 ∧ win3_0.index t 1 = t.val % 4
    ∧ win3_1.index t 0 = t.val % 4 ∧ win3_1.index t 1 = t.val / 4
    ∧ win3_2.index t 0 = 0 ∧ win3_2.index t 1 = t.val / 4 :=
  (by decide +kernel : ∀ t : Fin grid3.N, win3_0.index t 0 = 0 ∧ win3_0.index t 1 = t.val % 4
    ∧ win3_1.index t 0 = t.val % 4 ∧ win3_1.index t 1 = t.val / 4
    ∧ win3_2.index t 0 = 0 ∧ win3_2.index t 1 = t.val / 4)

theorem blk3_0 (c : Dev nD) (t : Fin cfg3.N) (kk : Fin 4) (hkk : kk.val = t.val % 4) :
    (iblk3 V c 0 t : Vec F S1x1024 .f32) = xblk (V c (Pipeline.arrRef spec3 0) : Vec F S1x4096 .f32) kk := by
  obtain ⟨ea, eb, -⟩ := tile3_idx t
  funext y
  unfold iblk3 xblk
  rw [View.read_apply]
  refine congrArg (V c (Pipeline.arrRef spec3 0)) (funext fun a => Fin.ext ?_)
  have hya : (y 0).val < 1 := (y 0).isLt
  have hyb : (y 1).val < 1024 := (y 1).isLt
  match a with
  | ⟨0, _⟩ => show win3_0.index t 0 * 1 + 1 * (y 0).val = 0; rw [ea]; omega
  | ⟨1, _⟩ => show win3_0.index t 1 * 1024 + 1 * (y 1).val = kk.val * 1024 + (y 1).val; rw [eb, hkk]; omega

theorem blk3_1 (c : Dev nD) (t : Fin cfg3.N) (kk n : Fin 4) (hkk : kk.val = t.val % 4) (hn : n.val = t.val / 4) :
    (iblk3 V c 1 t : Vec F S1024x1024 .f32) = wblk (V c (Pipeline.arrRef spec3 1) : Vec F S4096x4096 .f32) kk n := by
  obtain ⟨-, -, ea, eb, -⟩ := tile3_idx t
  funext y
  unfold iblk3 wblk
  rw [View.read_apply]
  refine congrArg (V c (Pipeline.arrRef spec3 1)) (funext fun a => Fin.ext ?_)
  have hya : (y 0).val < 1024 := (y 0).isLt
  have hyb : (y 1).val < 1024 := (y 1).isLt
  match a with
  | ⟨0, _⟩ => show win3_1.index t 0 * 1024 + 1 * (y 0).val = kk.val * 1024 + (y 0).val; rw [ea, hkk]; omega
  | ⟨1, _⟩ => show win3_1.index t 1 * 1024 + 1 * (y 1).val = n.val * 1024 + (y 1).val; rw [eb, hn]; omega

abbrev val3_0 (c : Dev nD) : Vec F S1x4096 .f32 := V c (Pipeline.arrRef spec3 0)

abbrev val3_1 (c : Dev nD) : Vec F S4096x4096 .f32 := V c (Pipeline.arrRef spec3 1)

theorem flushed3_2 (c : Dev nD) (t : Fin cfg3.N) (hf : (cfg3.win 2).flush t = true) :
    (dat3 V c).flushed 2 t = ((cfg3.win 2).blk t).view.read (Elt F) (mvKern (val3_0 V c) (val3_1 V c)) := by
  have h3 : t.val % 4 = 3 := (flush3_2 t).mp hf
  have hN : t.val < 16 := lt_of_lt_of_eq t.isLt (show cfg3.N = 16 from N_3)
  obtain ⟨-, -, -, -, ea, eb⟩ := tile3_idx t
  show (cfg3.win 2).cut (grid3.coords t) ((dat3 V c).after 2 t) = _
  rw [after3_2, mvLastOut c (ops3 V c) (val3_0 V c) (val3_1 V c) (fun n hn kk hkk => blk3_0 V c ⟨n, hn⟩ kk hkk)
    (fun n hn kk col hkk hcol => blk3_1 V c ⟨n, hn⟩ kk col hkk hcol) t.val t.isLt h3 ⟨t.val / 4, by omega⟩ rfl]
  funext y
  rw [View.read_apply]
  have hyb : (y 1).val < 1024 := (y 1).isLt
  exact (mvKern_col (val3_0 V c) (val3_1 V c) (((cfg3.win 2).blk t).view.emb y) ⟨t.val / 4, by omega⟩ y (by
    show win3_2.index t 1 * 1024 + 1 * (y 1).val = t.val / 4 * 1024 + (y 1).val
    rw [eb]; omega)).symm

theorem cover_pt3 (i : S1x4096.Idx) : ∃ t : Fin cfg3.N, (cfg3.win 2).flush t = true ∧ i ∈ ((cfg3.win 2).blk t).view.set := by
  have hia : (i 0).val < 1 := (i 0).isLt
  have hib : (i 1).val < 4096 := (i 1).isLt
  have hpt : 4 * ((i 1).val / 1024) + 3 < cfg3.N := lt_of_lt_of_eq (by omega) (show cfg3.N = 16 from N_3).symm
  refine ⟨⟨4 * ((i 1).val / 1024) + 3, hpt⟩, (flush3_2 _).mpr (by show (4 * ((i 1).val / 1024) + 3) % 4 = 3; omega), ?_⟩
  obtain ⟨-, -, -, -, ea, eb⟩ := tile3_idx ⟨4 * ((i 1).val / 1024) + 3, hpt⟩
  show i ∈ ((View.whole (Pipeline.arrRef spec3 2)).slice (win3_2.rect ⟨4 * ((i 1).val / 1024) + 3, hpt⟩)).set
  rw [View.set_slice_whole, Rect.mem_set_unit]
  intro a
  match a with
  | ⟨0, _⟩ =>
    show win3_2.index ⟨4 * ((i 1).val / 1024) + 3, hpt⟩ 0 * 1 ≤ (i 0).val ∧ (i 0).val < win3_2.index ⟨4 * ((i 1).val / 1024) + 3, hpt⟩ 0 * 1 + 1
    rw [ea]; omega
  | ⟨1, _⟩ =>
    show win3_2.index ⟨4 * ((i 1).val / 1024) + 3, hpt⟩ 1 * 1024 ≤ (i 1).val ∧ (i 1).val < win3_2.index ⟨4 * ((i 1).val / 1024) + 3, hpt⟩ 1 * 1024 + 1024
    rw [eb]
    show (4 * ((i 1).val / 1024) + 3) / 4 * 1024 ≤ (i 1).val ∧ (i 1).val < (4 * ((i 1).val / 1024) + 3) / 4 * 1024 + 1024
    omega

theorem final3 (c : Dev nD) : (dat3 V c).arrAt 2 cfg3.N = mvKern (val3_0 V c) (val3_1 V c) :=
  (dat3 V c).arrAt_eq_of_cover 2 (mvKern (val3_0 V c) (val3_1 V c)) (flushed3_2 V c) cover_pt3

end Cert.KernelIdeal.Hand

end
-- ==== Proof.KI.Val4.lean ====
import proofs.«151769_j20177756357157_1_alg».proof.Proof.KI.Reg4
import proofs.«151769_j20177756357157_1_alg».proof.Proof.KI.MvPiece

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tile4_idx : ∀ t : Fin cfg4.N, win4_0.index t 0 = 0 ∧ win4_0.index t 1 = t.val % 4
    ∧ win4_1.index t 0 = t.val % 4 ∧ win4_1.index t 1 = t.val / 4
    ∧ win4_2.index t 0 = 0 ∧ win4_2.index t 1 = t.val / 4 :=
  (by decide +kernel : ∀ t : Fin grid4.N, win4_0.index t 0 = 0 ∧ win4_0.index t 1 = t.val % 4
    ∧ win4_1.index t 0 = t.val % 4 ∧ win4_1.index t 1 = t.val / 4
    ∧ win4_2.index t 0 = 0 ∧ win4_2.index t 1 = t.val / 4)

theorem blk4_0 (c : Dev nD) (t : Fin cfg4.N) (kk : Fin 4) (hkk : kk.val = t.val % 4) :
    (iblk4 V c 0 t : Vec F S1x1024 .f32) = xblk (V c (Pipeline.arrRef spec4 0) : Vec F S1x4096 .f32) kk := by
  obtain ⟨ea, eb, -⟩ := tile4_idx t
  funext y
  unfold iblk4 xblk
  rw [View.read_apply]
  refine congrArg (V c (Pipeline.arrRef spec4 0)) (funext fun a => Fin.ext ?_)
  have hya : (y 0).val < 1 := (y 0).isLt
  have hyb : (y 1).val < 1024 := (y 1).isLt
  match a with
  | ⟨0, _⟩ => show win4_0.index t 0 * 1 + 1 * (y 0).val = 0; rw [ea]; omega
  | ⟨1, _⟩ => show win4_0.index t 1 * 1024 + 1 * (y 1).val = kk.val * 1024 + (y 1).val; rw [eb, hkk]; omega

theorem blk4_1 (c : Dev nD) (t : Fin cfg4.N) (kk n : Fin 4) (hkk : kk.val = t.val % 4) (hn : n.val = t.val / 4) :
    (iblk4 V c 1 t : Vec F S1024x1024 .f32) = wblk (V c (Pipeline.arrRef spec4 1) : Vec F S4096x4096 .f32) kk n := by
  obtain ⟨-, -, ea, eb, -⟩ := tile4_idx t
  funext y
  unfold iblk4 wblk
  rw [View.read_apply]
  refine congrArg (V c (Pipeline.arrRef spec4 1)) (funext fun a => Fin.ext ?_)
  have hya : (y 0).val < 1024 := (y 0).isLt
  have hyb : (y 1).val < 1024 := (y 1).isLt
  match a with
  | ⟨0, _⟩ => show win4_1.index t 0 * 1024 + 1 * (y 0).val = kk.val * 1024 + (y 0).val; rw [ea, hkk]; omega
  | ⟨1, _⟩ => show win4_1.index t 1 * 1024 + 1 * (y 1).val = n.val * 1024 + (y 1).val; rw [eb, hn]; omega

abbrev val4_0 (c : Dev nD) : Vec F S1x4096 .f32 := V c (Pipeline.arrRef spec4 0)

abbrev val4_1 (c : Dev nD) : Vec F S4096x4096 .f32 := V c (Pipeline.arrRef spec4 1)

theorem flushed4_2 (c : Dev nD) (t : Fin cfg4.N) (hf : (cfg4.win 2).flush t = true) :
    (dat4 V c).flushed 2 t = ((cfg4.win 2).blk t).view.read (Elt F) (mvKern (val4_0 V c) (val4_1 V c)) := by
  have h3 : t.val % 4 = 3 := (flush4_2 t).mp hf
  have hN : t.val < 16 := lt_of_lt_of_eq t.isLt (show cfg4.N = 16 from N_4)
  obtain ⟨-, -, -, -, ea, eb⟩ := tile4_idx t
  show (cfg4.win 2).cut (grid4.coords t) ((dat4 V c).after 2 t) = _
  rw [after4_2, mvLastOut c (ops4 V c) (val4_0 V c) (val4_1 V c) (fun n hn kk hkk => blk4_0 V c ⟨n, hn⟩ kk hkk)
    (fun n hn kk col hkk hcol => blk4_1 V c ⟨n, hn⟩ kk col hkk hcol) t.val t.isLt h3 ⟨t.val / 4, by omega⟩ rfl]
  funext y
  rw [View.read_apply]
  have hyb : (y 1).val < 1024 := (y 1).isLt
  exact (mvKern_col (val4_0 V c) (val4_1 V c) (((cfg4.win 2).blk t).view.emb y) ⟨t.val / 4, by omega⟩ y (by
    show win4_2.index t 1 * 1024 + 1 * (y 1).val = t.val / 4 * 1024 + (y 1).val
    rw [eb]; omega)).symm

theorem cover_pt4 (i : S1x4096.Idx) : ∃ t : Fin cfg4.N, (cfg4.win 2).flush t = true ∧ i ∈ ((cfg4.win 2).blk t).view.set := by
  have hia : (i 0).val < 1 := (i 0).isLt
  have hib : (i 1).val < 4096 := (i 1).isLt
  have hpt : 4 * ((i 1).val / 1024) + 3 < cfg4.N := lt_of_lt_of_eq (by omega) (show cfg4.N = 16 from N_4).symm
  refine ⟨⟨4 * ((i 1).val / 1024) + 3, hpt⟩, (flush4_2 _).mpr (by show (4 * ((i 1).val / 1024) + 3) % 4 = 3; omega), ?_⟩
  obtain ⟨-, -, -, -, ea, eb⟩ := tile4_idx ⟨4 * ((i 1).val / 1024) + 3, hpt⟩
  show i ∈ ((View.whole (Pipeline.arrRef spec4 2)).slice (win4_2.rect ⟨4 * ((i 1).val / 1024) + 3, hpt⟩)).set
  rw [View.set_slice_whole, Rect.mem_set_unit]
  intro a
  match a with
  | ⟨0, _⟩ =>
    show win4_2.index ⟨4 * ((i 1).val / 1024) + 3, hpt⟩ 0 * 1 ≤ (i 0).val ∧ (i 0).val < win4_2.index ⟨4 * ((i 1).val / 1024) + 3, hpt⟩ 0 * 1 + 1
    rw [ea]; omega
  | ⟨1, _⟩ =>
    show win4_2.index ⟨4 * ((i 1).val / 1024) + 3, hpt⟩ 1 * 1024 ≤ (i 1).val ∧ (i 1).val < win4_2.index ⟨4 * ((i 1).val / 1024) + 3, hpt⟩ 1 * 1024 + 1024
    rw [eb]
    show (4 * ((i 1).val / 1024) + 3) / 4 * 1024 ≤ (i 1).val ∧ (i 1).val < (4 * ((i 1).val / 1024) + 3) / 4 * 1024 + 1024
    omega

theorem final4 (c : Dev nD) : (dat4 V c).arrAt 2 cfg4.N = mvKern (val4_0 V c) (val4_1 V c) :=
  (dat4 V c).arrAt_eq_of_cover 2 (mvKern (val4_0 V c) (val4_1 V c)) (flushed4_2 V c) cover_pt4

end Cert.KernelIdeal.Hand

end
-- ==== Proof.KI.Val5.lean ====
import proofs.«151769_j20177756357157_1_alg».proof.Proof.KI.Reg5
import proofs.«151769_j20177756357157_1_alg».proof.Proof.KI.MvPiece

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tile5_idx : ∀ t : Fin cfg5.N, win5_0.index t 0 = 0 ∧ win5_0.index t 1 = t.val % 4
    ∧ win5_1.index t 0 = t.val % 4 ∧ win5_1.index t 1 = t.val / 4
    ∧ win5_2.index t 0 = 0 ∧ win5_2.index t 1 = t.val / 4 :=
  (by decide +kernel : ∀ t : Fin grid5.N, win5_0.index t 0 = 0 ∧ win5_0.index t 1 = t.val % 4
    ∧ win5_1.index t 0 = t.val % 4 ∧ win5_1.index t 1 = t.val / 4
    ∧ win5_2.index t 0 = 0 ∧ win5_2.index t 1 = t.val / 4)

theorem blk5_0 (c : Dev nD) (t : Fin cfg5.N) (kk : Fin 4) (hkk : kk.val = t.val % 4) :
    (iblk5 V c 0 t : Vec F S1x1024 .f32) = xblk (V c (Pipeline.arrRef spec5 0) : Vec F S1x4096 .f32) kk := by
  obtain ⟨ea, eb, -⟩ := tile5_idx t
  funext y
  unfold iblk5 xblk
  rw [View.read_apply]
  refine congrArg (V c (Pipeline.arrRef spec5 0)) (funext fun a => Fin.ext ?_)
  have hya : (y 0).val < 1 := (y 0).isLt
  have hyb : (y 1).val < 1024 := (y 1).isLt
  match a with
  | ⟨0, _⟩ => show win5_0.index t 0 * 1 + 1 * (y 0).val = 0; rw [ea]; omega
  | ⟨1, _⟩ => show win5_0.index t 1 * 1024 + 1 * (y 1).val = kk.val * 1024 + (y 1).val; rw [eb, hkk]; omega

theorem blk5_1 (c : Dev nD) (t : Fin cfg5.N) (kk n : Fin 4) (hkk : kk.val = t.val % 4) (hn : n.val = t.val / 4) :
    (iblk5 V c 1 t : Vec F S1024x1024 .f32) = wblk (V c (Pipeline.arrRef spec5 1) : Vec F S4096x4096 .f32) kk n := by
  obtain ⟨-, -, ea, eb, -⟩ := tile5_idx t
  funext y
  unfold iblk5 wblk
  rw [View.read_apply]
  refine congrArg (V c (Pipeline.arrRef spec5 1)) (funext fun a => Fin.ext ?_)
  have hya : (y 0).val < 1024 := (y 0).isLt
  have hyb : (y 1).val < 1024 := (y 1).isLt
  match a with
  | ⟨0, _⟩ => show win5_1.index t 0 * 1024 + 1 * (y 0).val = kk.val * 1024 + (y 0).val; rw [ea, hkk]; omega
  | ⟨1, _⟩ => show win5_1.index t 1 * 1024 + 1 * (y 1).val = n.val * 1024 + (y 1).val; rw [eb, hn]; omega

abbrev val5_0 (c : Dev nD) : Vec F S1x4096 .f32 := V c (Pipeline.arrRef spec5 0)

abbrev val5_1 (c : Dev nD) : Vec F S4096x4096 .f32 := V c (Pipeline.arrRef spec5 1)

theorem flushed5_2 (c : Dev nD) (t : Fin cfg5.N) (hf : (cfg5.win 2).flush t = true) :
    (dat5 V c).flushed 2 t = ((cfg5.win 2).blk t).view.read (Elt F) (mvKern (val5_0 V c) (val5_1 V c)) := by
  have h3 : t.val % 4 = 3 := (flush5_2 t).mp hf
  have hN : t.val < 16 := lt_of_lt_of_eq t.isLt (show cfg5.N = 16 from N_5)
  obtain ⟨-, -, -, -, ea, eb⟩ := tile5_idx t
  show (cfg5.win 2).cut (grid5.coords t) ((dat5 V c).after 2 t) = _
  rw [after5_2, mvLastOut c (ops5 V c) (val5_0 V c) (val5_1 V c) (fun n hn kk hkk => blk5_0 V c ⟨n, hn⟩ kk hkk)
    (fun n hn kk col hkk hcol => blk5_1 V c ⟨n, hn⟩ kk col hkk hcol) t.val t.isLt h3 ⟨t.val / 4, by omega⟩ rfl]
  funext y
  rw [View.read_apply]
  have hyb : (y 1).val < 1024 := (y 1).isLt
  exact (mvKern_col (val5_0 V c) (val5_1 V c) (((cfg5.win 2).blk t).view.emb y) ⟨t.val / 4, by omega⟩ y (by
    show win5_2.index t 1 * 1024 + 1 * (y 1).val = t.val / 4 * 1024 + (y 1).val
    rw [eb]; omega)).symm

theorem cover_pt5 (i : S1x4096.Idx) : ∃ t : Fin cfg5.N, (cfg5.win 2).flush t = true ∧ i ∈ ((cfg5.win 2).blk t).view.set := by
  have hia : (i 0).val < 1 := (i 0).isLt
  have hib : (i 1).val < 4096 := (i 1).isLt
  have hpt : 4 * ((i 1).val / 1024) + 3 < cfg5.N := lt_of_lt_of_eq (by omega) (show cfg5.N = 16 from N_5).symm
  refine ⟨⟨4 * ((i 1).val / 1024) + 3, hpt⟩, (flush5_2 _).mpr (by show (4 * ((i 1).val / 1024) + 3) % 4 = 3; omega), ?_⟩
  obtain ⟨-, -, -, -, ea, eb⟩ := tile5_idx ⟨4 * ((i 1).val / 1024) + 3, hpt⟩
  show i ∈ ((View.whole (Pipeline.arrRef spec5 2)).slice (win5_2.rect ⟨4 * ((i 1).val / 1024) + 3, hpt⟩)).set
  rw [View.set_slice_whole, Rect.mem_set_unit]
  intro a
  match a with
  | ⟨0, _⟩ =>
    show win5_2.index ⟨4 * ((i 1).val / 1024) + 3, hpt⟩ 0 * 1 ≤ (i 0).val ∧ (i 0).val < win5_2.index ⟨4 * ((i 1).val / 1024) + 3, hpt⟩ 0 * 1 + 1
    rw [ea]; omega
  | ⟨1, _⟩ =>
    show win5_2.index ⟨4 * ((i 1).val / 1024) + 3, hpt⟩ 1 * 1024 ≤ (i 1).val ∧ (i 1).val < win5_2.index ⟨4 * ((i 1).val / 1024) + 3, hpt⟩ 1 * 1024 + 1024
    rw [eb]
    show (4 * ((i 1).val / 1024) + 3) / 4 * 1024 ≤ (i 1).val ∧ (i 1).val < (4 * ((i 1).val / 1024) + 3) / 4 * 1024 + 1024
    omega

theorem final5 (c : Dev nD) : (dat5 V c).arrAt 2 cfg5.N = mvKern (val5_0 V c) (val5_1 V c) :=
  (dat5 V c).arrAt_eq_of_cover 2 (mvKern (val5_0 V c) (val5_1 V c)) (flushed5_2 V c) cover_pt5

end Cert.KernelIdeal.Hand

end
-- ==== Proof.KI.Val6.lean ====
import proofs.«151769_j20177756357157_1_alg».proof.Proof.KI.Reg6
import proofs.«151769_j20177756357157_1_alg».proof.Proof.KI.MvPiece

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem tile6_idx : ∀ t : Fin cfg6.N, win6_0.index t 0 = 0 ∧ win6_0.index t 1 = t.val % 4
    ∧ win6_1.index t 0 = t.val % 4 ∧ win6_1.index t 1 = t.val / 4
    ∧ win6_2.index t 0 = 0 ∧ win6_2.index t 1 = t.val / 4 :=
  (by decide +kernel : ∀ t : Fin grid6.N, win6_0.index t 0 = 0 ∧ win6_0.index t 1 = t.val % 4
    ∧ win6_1.index t 0 = t.val % 4 ∧ win6_1.index t 1 = t.val / 4
    ∧ win6_2.index t 0 = 0 ∧ win6_2.index t 1 = t.val / 4)

theorem blk6_0 (c : Dev nD) (t : Fin cfg6.N) (kk : Fin 4) (hkk : kk.val = t.val % 4) :
    (iblk6 V c 0 t : Vec F S1x1024 .f32) = xblk (V c (Pipeline.arrRef spec6 0) : Vec F S1x4096 .f32) kk := by
  obtain ⟨ea, eb, -⟩ := tile6_idx t
  funext y
  unfold iblk6 xblk
  rw [View.read_apply]
  refine congrArg (V c (Pipeline.arrRef spec6 0)) (funext fun a => Fin.ext ?_)
  have hya : (y 0).val < 1 := (y 0).isLt
  have hyb : (y 1).val < 1024 := (y 1).isLt
  match a with
  | ⟨0, _⟩ => show win6_0.index t 0 * 1 + 1 * (y 0).val = 0; rw [ea]; omega
  | ⟨1, _⟩ => show win6_0.index t 1 * 1024 + 1 * (y 1).val = kk.val * 1024 + (y 1).val; rw [eb, hkk]; omega

theorem blk6_1 (c : Dev nD) (t : Fin cfg6.N) (kk n : Fin 4) (hkk : kk.val = t.val % 4) (hn : n.val = t.val / 4) :
    (iblk6 V c 1 t : Vec F S1024x1024 .f32) = wblk (V c (Pipeline.arrRef spec6 1) : Vec F S4096x4096 .f32) kk n := by
  obtain ⟨-, -, ea, eb, -⟩ := tile6_idx t
  funext y
  unfold iblk6 wblk
  rw [View.read_apply]
  refine congrArg (V c (Pipeline.arrRef spec6 1)) (funext fun a => Fin.ext ?_)
  have hya : (y 0).val < 1024 := (y 0).isLt
  have hyb : (y 1).val < 1024 := (y 1).isLt
  match a with
  | ⟨0, _⟩ => show win6_1.index t 0 * 1024 + 1 * (y 0).val = kk.val * 1024 + (y 0).val; rw [ea, hkk]; omega
  | ⟨1, _⟩ => show win6_1.index t 1 * 1024 + 1 * (y 1).val = n.val * 1024 + (y 1).val; rw [eb, hn]; omega

abbrev val6_0 (c : Dev nD) : Vec F S1x4096 .f32 := V c (Pipeline.arrRef spec6 0)

abbrev val6_1 (c : Dev nD) : Vec F S4096x4096 .f32 := V c (Pipeline.arrRef spec6 1)

theorem flushed6_2 (c : Dev nD) (t : Fin cfg6.N) (hf : (cfg6.win 2).flush t = true) :
    (dat6 V c).flushed 2 t = ((cfg6.win 2).blk t).view.read (Elt F) (mvKern (val6_0 V c) (val6_1 V c)) := by
  have h3 : t.val % 4 = 3 := (flush6_2 t).mp hf
  have hN : t.val < 16 := lt_of_lt_of_eq t.isLt (show cfg6.N = 16 from N_6)
  obtain ⟨-, -, -, -, ea, eb⟩ := tile6_idx t
  show (cfg6.win 2).cut (grid6.coords t) ((dat6 V c).after 2 t) = _
  rw [after6_2, mvLastOut c (ops6 V c) (val6_0 V c) (val6_1 V c) (fun n hn kk hkk => blk6_0 V c ⟨n, hn⟩ kk hkk)
    (fun n hn kk col hkk hcol => blk6_1 V c ⟨n, hn⟩ kk col hkk hcol) t.val t.isLt h3 ⟨t.val / 4, by omega⟩ rfl]
  funext y
  rw [View.read_apply]
  have hyb : (y 1).val < 1024 := (y 1).isLt
  exact (mvKern_col (val6_0 V c) (val6_1 V c) (((cfg6.win 2).blk t).view.emb y) ⟨t.val / 4, by omega⟩ y (by
    show win6_2.index t 1 * 1024 + 1 * (y 1).val = t.val / 4 * 1024 + (y 1).val
    rw [eb]; omega)).symm

theorem cover_pt6 (i : S1x4096.Idx) : ∃ t : Fin cfg6.N, (cfg6.win 2).flush t = true ∧ i ∈ ((cfg6.win 2).blk t).view.set := by
  have hia : (i 0).val < 1 := (i 0).isLt
  have hib : (i 1).val < 4096 := (i 1).isLt
  have hpt : 4 * ((i 1).val / 1024) + 3 < cfg6.N := lt_of_lt_of_eq (by omega) (show cfg6.N = 16 from N_6).symm
  refine ⟨⟨4 * ((i 1).val / 1024) + 3, hpt⟩, (flush6_2 _).mpr (by show (4 * ((i 1).val / 1024) + 3) % 4 = 3; omega), ?_⟩
  obtain ⟨-, -, -, -, ea, eb⟩ := tile6_idx ⟨4 * ((i 1).val / 1024) + 3, hpt⟩
  show i ∈ ((View.whole (Pipeline.arrRef spec6 2)).slice (win6_2.rect ⟨4 * ((i 1).val / 1024) + 3, hpt⟩)).set
  rw [View.set_slice_whole, Rect.mem_set_unit]
  intro a
  match a with
  | ⟨0, _⟩ =>
    show win6_2.index ⟨4 * ((i 1).val / 1024) + 3, hpt⟩ 0 * 1 ≤ (i 0).val ∧ (i 0).val < win6_2.index ⟨4 * ((i 1).val / 1024) + 3, hpt⟩ 0 * 1 + 1
    rw [ea]; omega
  | ⟨1, _⟩ =>
    show win6_2.index ⟨4 * ((i 1).val / 1024) + 3, hpt⟩ 1 * 1024 ≤ (i 1).val ∧ (i 1).val < win6_2.index ⟨4 * ((i 1).val / 1024) + 3, hpt⟩ 1 * 1024 + 1024
    rw [eb]
    show (4 * ((i 1).val / 1024) + 3) / 4 * 1024 ≤ (i 1).val ∧ (i 1).val < (4 * ((i 1).val / 1024) + 3) / 4 * 1024 + 1024
    omega

theorem final6 (c : Dev nD) : (dat6 V c).arrAt 2 cfg6.N = mvKern (val6_0 V c) (val6_1 V c) :=
  (dat6 V c).arrAt_eq_of_cover 2 (mvKern (val6_0 V c) (val6_1 V c)) (flushed6_2 V c) cover_pt6

end Cert.KernelIdeal.Hand

end
-- ==== Proof.KI.Value.lean ====
import proofs.«151769_j20177756357157_1_alg».proof.Proof.KI.RunW
import proofs.«151769_j20177756357157_1_alg».proof.Proof.KI.Kept
import proofs.«151769_j20177756357157_1_alg».proof.Proof.KI.MvKern
import proofs.«151769_j20177756357157_1_alg».proof.Proof.KI.Val0
import proofs.«151769_j20177756357157_1_alg».proof.Proof.KI.Val1
import proofs.«151769_j20177756357157_1_alg».proof.Proof.KI.Val2
import proofs.«151769_j20177756357157_1_alg».proof.Proof.KI.Val3
import proofs.«151769_j20177756357157_1_alg».proof.Proof.KI.Val4
import proofs.«151769_j20177756357157_1_alg».proof.Proof.KI.Val5
import proofs.«151769_j20177756357157_1_alg».proof.Proof.KI.Val6
import Idealize.ShloMosaic.Lib.StableHlo.Run
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

def kOut (a : Vec F S1x64x64 .f32) (nv : Vec F S1x64x256 .f32) (W1 W2 : Vec F S4096x4096 .f32) : Vec F S64x64 .f32 :=
  shapeCast _ (mvKern (mvKern (shapeCast _ (k0_pay2 (shapeCast _ nv shapeCasts_S1x64x256_S64x256) (shapeCast _ a shapeCasts_S1x64x64_S64x64)) shapeCasts_S64x64_S1x4096) W1) W2) shapeCasts_S1x4096_S64x64

variable (m : (ℓ : Loc nD τ sig) → Buf (Elt F) ℓ) (ρ : Dev nD → PrngReg)

theorem W1_main_v0 (c : Dev nD) :
    W1 m ρ c (Proc.devRef .tc main_v0) = shapeCast S64x64 (m ((c : Thread nD τ).loc main_arg0)) shapeCasts_S1x64x64_S64x64 := by
  show StableHlo.after hostOps0 (W0 m ρ c) (Proc.devRef .tc main_v0) = _
  after_results
  rfl
theorem W1_main_v1 (c : Dev nD) :
    W1 m ρ c (Proc.devRef .tc main_v1) = shapeCast S64x64 (m ((c : Thread nD τ).loc main_arg1)) shapeCasts_S1x64x64_S64x64 := by
  show StableHlo.after hostOps0 (W0 m ρ c) (Proc.devRef .tc main_v1) = _
  after_results
  rfl
theorem W1_main_v2 (c : Dev nD) :
    W1 m ρ c (Proc.devRef .tc main_v2) = shapeCast S64x64 (m ((c : Thread nD τ).loc main_arg2)) shapeCasts_S1x64x64_S64x64 := by
  show StableHlo.after hostOps0 (W0 m ρ c) (Proc.devRef .tc main_v2) = _
  after_results
  rfl
theorem W1_main_v3 (c : Dev nD) :
    W1 m ρ c (Proc.devRef .tc main_v3) = shapeCast S64x256 (m ((c : Thread nD τ).loc main_arg3)) shapeCasts_S1x64x256_S64x256 := by
  show StableHlo.after hostOps0 (W0 m ρ c) (Proc.devRef .tc main_v3) = _
  after_results
  rfl

theorem W2_main_v4_0 (c : Dev nD) :
    W2 m ρ c (Proc.devRef .tc main_v4_0) = k0_pay2 (F := F) (shapeCast S64x256 (m ((c : Thread nD τ).loc main_arg3)) shapeCasts_S1x64x256_S64x256)
      (shapeCast S64x64 (m ((c : Thread nD τ).loc main_arg0)) shapeCasts_S1x64x64_S64x64) := by
  refine (W2_arr m ρ c 4).trans (funext fun i => ?_)
  rw [arrAt0_4 (V1 m ρ) c i]
  show k0_pay2 (F := F) (W1 m ρ c (Proc.devRef .tc main_v3)) (W1 m ρ c (Proc.devRef .tc main_v0)) i = _
  rw [W1_main_v3, W1_main_v0]
theorem W2_main_v4_1 (c : Dev nD) :
    W2 m ρ c (Proc.devRef .tc main_v4_1) = k0_pay2 (F := F) (shapeCast S64x256 (m ((c : Thread nD τ).loc main_arg3)) shapeCasts_S1x64x256_S64x256)
      (shapeCast S64x64 (m ((c : Thread nD τ).loc main_arg1)) shapeCasts_S1x64x64_S64x64) := by
  refine (W2_arr m ρ c 5).trans (funext fun i => ?_)
  rw [arrAt0_5 (V1 m ρ) c i]
  show k0_pay2 (F := F) (W1 m ρ c (Proc.devRef .tc main_v3)) (W1 m ρ c (Proc.devRef .tc main_v1)) i = _
  rw [W1_main_v3, W1_main_v1]
theorem W2_main_v4_2 (c : Dev nD) :
    W2 m ρ c (Proc.devRef .tc main_v4_2) = k0_pay2 (F := F) (shapeCast S64x256 (m ((c : Thread nD τ).loc main_arg3)) shapeCasts_S1x64x256_S64x256)
      (shapeCast S64x64 (m ((c : Thread nD τ).loc main_arg2)) shapeCasts_S1x64x64_S64x64) := by
  refine (W2_arr m ρ c 6).trans (funext fun i => ?_)
  rw [arrAt0_6 (V1 m ρ) c i]
  show k0_pay2 (F := F) (W1 m ρ c (Proc.devRef .tc main_v3)) (W1 m ρ c (Proc.devRef .tc main_v2)) i = _
  rw [W1_main_v3, W1_main_v2]

theorem W3_main_v5 (c : Dev nD) :
    W3 m ρ c (Proc.devRef .tc main_v5) = shapeCast S1x4096 (W2 m ρ c (Proc.devRef .tc main_v4_0)) shapeCasts_S64x64_S1x4096 := by
  show StableHlo.after hostOps1 (W2 m ρ c) (Proc.devRef .tc main_v5) = _
  after_results
  rfl
theorem W4_main_v6 (c : Dev nD) :
    W4 m ρ c (Proc.devRef .tc main_v6) = mvKern (F := F) (W3 m ρ c (Proc.devRef .tc main_v5)) (W3 m ρ c (Proc.devRef .tc main_arg4)) :=
  (W4_arr m ρ c 2).trans (final1 (V3 m ρ) c)
theorem W5_main_v7 (c : Dev nD) :
    W5 m ρ c (Proc.devRef .tc main_v7) = mvKern (F := F) (W4 m ρ c (Proc.devRef .tc main_v6)) (W4 m ρ c (Proc.devRef .tc main_arg5)) :=
  (W5_arr m ρ c 2).trans (final2 (V4 m ρ) c)
theorem W6_main_v8 (c : Dev nD) :
    W6 m ρ c (Proc.devRef .tc main_v8) = shapeCast S64x64 (W5 m ρ c (Proc.devRef .tc main_v7)) shapeCasts_S1x4096_S64x64 := by
  show StableHlo.after hostOps3 (W5 m ρ c) (Proc.devRef .tc main_v8) = _
  after_results
  rfl
theorem W6_main_v8_eq (c : Dev nD) :
    W6 m ρ c (Proc.devRef .tc main_v8) = kOut (m ((c : Thread nD τ).loc main_arg0)) (m ((c : Thread nD τ).loc main_arg3)) (m ((c : Thread nD τ).loc main_arg4)) (m ((c : Thread nD τ).loc main_arg5)) := by
  unfold kOut
  rw [W6_main_v8, W5_main_v7, W4_main_v6, W4_arg m ρ c main_arg5 (by decide), W3_main_v5, W3_arg m ρ c main_arg4 (by decide), W2_main_v4_0]
theorem W12_main_v8 (c : Dev nD) :
    W12 m ρ c (Proc.devRef .tc main_v8) = kOut (m ((c : Thread nD τ).loc main_arg0)) (m ((c : Thread nD τ).loc main_arg3)) (m ((c : Thread nD τ).loc main_arg4)) (m ((c : Thread nD τ).loc main_arg5)) :=
  calc W12 m ρ c (Proc.devRef .tc main_v8)
    _ = W11 m ρ c (Proc.devRef .tc main_v8) := W12_keep m ρ c main_v8 (by decide)
    _ = W10 m ρ c (Proc.devRef .tc main_v8) := W11_of_ne m ρ c main_v8 (by decide)
    _ = W9 m ρ c (Proc.devRef .tc main_v8) := W10_of_ne m ρ c main_v8 (by decide)
    _ = W8 m ρ c (Proc.devRef .tc main_v8) := W9_keep m ρ c main_v8 (by decide)
    _ = W7 m ρ c (Proc.devRef .tc main_v8) := W8_of_ne m ρ c main_v8 (by decide)
    _ = W6 m ρ c (Proc.devRef .tc main_v8) := W7_of_ne m ρ c main_v8 (by decide)
    _ = _ := W6_main_v8_eq m ρ c

theorem W5_main_v4_1 (c : Dev nD) : W5 m ρ c (Proc.devRef .tc main_v4_1) = W2 m ρ c (Proc.devRef .tc main_v4_1) :=
  calc W5 m ρ c (Proc.devRef .tc main_v4_1)
    _ = W4 m ρ c (Proc.devRef .tc main_v4_1) := W5_of_ne m ρ c main_v4_1 (by decide)
    _ = W3 m ρ c (Proc.devRef .tc main_v4_1) := W4_of_ne m ρ c main_v4_1 (by decide)
    _ = W2 m ρ c (Proc.devRef .tc main_v4_1) := W3_keep m ρ c main_v4_1 (by decide)
theorem W6_main_v9 (c : Dev nD) :
    W6 m ρ c (Proc.devRef .tc main_v9) = shapeCast S1x4096 (W5 m ρ c (Proc.devRef .tc main_v4_1)) shapeCasts_S64x64_S1x4096 := by
  show StableHlo.after hostOps3 (W5 m ρ c) (Proc.devRef .tc main_v9) = _
  after_results
  rfl
theorem W7_main_v10 (c : Dev nD) :
    W7 m ρ c (Proc.devRef .tc main_v10) = mvKern (F := F) (W6 m ρ c (Proc.devRef .tc main_v9)) (W6 m ρ c (Proc.devRef .tc main_arg6)) :=
  (W7_arr m ρ c 2).trans (final3 (V6 m ρ) c)
theorem W8_main_v11 (c : Dev nD) :
    W8 m ρ c (Proc.devRef .tc main_v11) = mvKern (F := F) (W7 m ρ c (Proc.devRef .tc main_v10)) (W7 m ρ c (Proc.devRef .tc main_arg7)) :=
  (W8_arr m ρ c 2).trans (final4 (V7 m ρ) c)
theorem W9_main_v12 (c : Dev nD) :
    W9 m ρ c (Proc.devRef .tc main_v12) = shapeCast S64x64 (W8 m ρ c (Proc.devRef .tc main_v11)) shapeCasts_S1x4096_S64x64 := by
  show StableHlo.after hostOps5 (W8 m ρ c) (Proc.devRef .tc main_v12) = _
  after_results
  rfl
theorem W9_main_v12_eq (c : Dev nD) :
    W9 m ρ c (Proc.devRef .tc main_v12) = kOut (m ((c : Thread nD τ).loc main_arg1)) (m ((c : Thread nD τ).loc main_arg3)) (m ((c : Thread nD τ).loc main_arg6)) (m ((c : Thread nD τ).loc main_arg7)) := by
  unfold kOut
  rw [W9_main_v12, W8_main_v11, W7_main_v10, W7_arg m ρ c main_arg7 (by decide), W6_main_v9, W6_arg m ρ c main_arg6 (by decide), W5_main_v4_1, W2_main_v4_1]
theorem W12_main_v12 (c : Dev nD) :
    W12 m ρ c (Proc.devRef .tc main_v12) = kOut (m ((c : Thread nD τ).loc main_arg1)) (m ((c : Thread nD τ).loc main_arg3)) (m ((c : Thread nD τ).loc main_arg6)) (m ((c : Thread nD τ).loc main_arg7)) :=
  calc W12 m ρ c (Proc.devRef .tc main_v12)
    _ = W11 m ρ c (Proc.devRef .tc main_v12) := W12_keep m ρ c main_v12 (by decide)
    _ = W10 m ρ c (Proc.devRef .tc main_v12) := W11_of_ne m ρ c main_v12 (by decide)
    _ = W9 m ρ c (Proc.devRef .tc main_v12) := W10_of_ne m ρ c main_v12 (by decide)
    _ = _ := W9_main_v12_eq m ρ c

theorem W8_main_v4_2 (c : Dev nD) : W8 m ρ c (Proc.devRef .tc main_v4_2) = W2 m ρ c (Proc.devRef .tc main_v4_2) :=
  calc W8 m ρ c (Proc.devRef .tc main_v4_2)
    _ = W7 m ρ c (Proc.devRef .tc main_v4_2) := W8_of_ne m ρ c main_v4_2 (by decide)
    _ = W6 m ρ c (Proc.devRef .tc main_v4_2) := W7_of_ne m ρ c main_v4_2 (by decide)
    _ = W5 m ρ c (Proc.devRef .tc main_v4_2) := W6_keep m ρ c main_v4_2 (by decide)
    _ = W4 m ρ c (Proc.devRef .tc main_v4_2) := W5_of_ne m ρ c main_v4_2 (by decide)
    _ = W3 m ρ c (Proc.devRef .tc main_v4_2) := W4_of_ne m ρ c main_v4_2 (by decide)
    _ = W2 m ρ c (Proc.devRef .tc main_v4_2) := W3_keep m ρ c main_v4_2 (by decide)
theorem W9_main_v13 (c : Dev nD) :
    W9 m ρ c (Proc.devRef .tc main_v13) = shapeCast S1x4096 (W8 m ρ c (Proc.devRef .tc main_v4_2)) shapeCasts_S64x64_S1x4096 := by
  show StableHlo.after hostOps5 (W8 m ρ c) (Proc.devRef .tc main_v13) = _
  after_results
  rfl
theorem W10_main_v14 (c : Dev nD) :
    W10 m ρ c (Proc.devRef .tc main_v14) = mvKern (F := F) (W9 m ρ c (Proc.devRef .tc main_v13)) (W9 m ρ c (Proc.devRef .tc main_arg8)) :=
  (W10_arr m ρ c 2).trans (final5 (V9 m ρ) c)
theorem W11_main_v15 (c : Dev nD) :
    W11 m ρ c (Proc.devRef .tc main_v15) = mvKern (F := F) (W10 m ρ c (Proc.devRef .tc main_v14)) (W10 m ρ c (Proc.devRef .tc main_arg9)) :=
  (W11_arr m ρ c 2).trans (final6 (V10 m ρ) c)
theorem W12_main_v16_cast (c : Dev nD) :
    W12 m ρ c (Proc.devRef .tc main_v16) = shapeCast S64x64 (W11 m ρ c (Proc.devRef .tc main_v15)) shapeCasts_S1x4096_S64x64 := by
  show StableHlo.after hostOps7 (W11 m ρ c) (Proc.devRef .tc main_v16) = _
  after_results
  rfl
theorem W12_main_v16 (c : Dev nD) :
    W12 m ρ c (Proc.devRef .tc main_v16) = kOut (m ((c : Thread nD τ).loc main_arg2)) (m ((c : Thread nD τ).loc main_arg3)) (m ((c : Thread nD τ).loc main_arg8)) (m ((c : Thread nD τ).loc main_arg9)) := by
  unfold kOut
  rw [W12_main_v16_cast, W11_main_v15, W10_main_v14, W10_arg m ρ c main_arg9 (by decide), W9_main_v13, W9_arg m ρ c main_arg8 (by decide), W8_main_v4_2, W2_main_v4_2]

end Cert.KernelIdeal.Hand

end
-- ==== Proof.RefFns.lean ====
import proofs.«151769_j20177756357157_1_alg».proof.Proof.Gen.ReferenceIdeal.Run

noncomputable section

namespace Cert.ReferenceIdeal.RefValue

open Idealize.ShloMosaic Idealize.ShloMosaic.TcCoe Idealize.SL.Sem Cert.ReferenceIdeal Cert.ReferenceIdeal.Gen

variable {F : FTy → Type} [FloatOps F]

def refDiff (nv : Vec F S64x256 .f32) : FVec F S64x64x256 .f32 :=
  subf (broadcastInDim S64x64x256 ![0, 1, 2] bcast_S64x1x256_S64x64x256_0_1_2 (broadcastInDim S64x1x256 ![0, 2] bcast_S64x256_S64x1x256_0_2 nv))
    (broadcastInDim S64x64x256 ![0, 1, 2] bcast_S1x64x256_S64x64x256_0_1_2 (broadcastInDim S1x64x256 ![1, 2] bcast_S64x256_S1x64x256_1_2 nv))

def refDist (nv : Vec F S64x256 .f32) (a : Vec F S64x64 .f32) : Vec F S64x64 .f32 :=
  select (cmpf .oeq a (broadcastInDim S64x64 ![] bcast_S_S64x64 (constant S_ .f32 0x3F800000#32)))
    (Host.sqrt (Host.reduceAdd (mulf (refDiff nv) (refDiff nv)) (constant S_ .f32 0x00000000#32) reducesTo_S64x64x256_S64x64_d2 h_S_))
    (broadcastInDim S64x64 ![] bcast_S_S64x64 (id (constant S_ .f32 0x00000000#32)))

def refMv (v : Vec F S1x4096 .f32) (W : Vec F S4096x4096 .f32) : Vec F S1x4096 .f32 :=
  maximumf (Host.dotGeneral dot_S1x4096_S4096x4096_S1x4096_1_0_0_1_n_n none v W) (broadcastInDim S1x4096 ![] bcast_S_S1x4096 (constant S_ .f32 0x00000000#32))

def refOut (a : Vec F S1x64x64 .f32) (nv : Vec F S1x64x256 .f32) (W1 W2 : Vec F S4096x4096 .f32) : Vec F S64x64 .f32 :=
  shapeCast _ (refMv (refMv (shapeCast _ (refDist (shapeCast _ nv shapeCasts_S1x64x256_S64x256) (shapeCast _ a shapeCasts_S1x64x64_S64x64)) shapeCasts_S64x64_S1x4096) W1) W2) shapeCasts_S1x4096_S64x64

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = refOut (m ((c.tc : Thread nD τ).loc main_arg0)) (m ((c.tc : Thread nD τ).loc main_arg3)) (m ((c.tc : Thread nD τ).loc main_arg4)) (m ((c.tc : Thread nD τ).loc main_arg5))
      ∧ r.2.mem ((c.tc : Thread nD τ).loc main_v37) = refOut (m ((c.tc : Thread nD τ).loc main_arg1)) (m ((c.tc : Thread nD τ).loc main_arg3)) (m ((c.tc : Thread nD τ).loc main_arg6)) (m ((c.tc : Thread nD τ).loc main_arg7))
      ∧ r.2.mem ((c.tc : Thread nD τ).loc main_v54) = refOut (m ((c.tc : Thread nD τ).loc main_arg2)) (m ((c.tc : Thread nD τ).loc main_arg3)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  Cert.ReferenceIdeal.Value.run m ρ

end Cert.ReferenceIdeal.RefValue

end
-- ==== Proof.MvMath.lean ====
import proofs.«151769_j20177756357157_1_alg».proof.Proof.KI.MvKern
import proofs.«151769_j20177756357157_1_alg».proof.Proof.RefFns
import Idealize.ShloMosaic.Lib.Pipeline.Value
import Idealize.ShloMosaic.Lib.ValueIdx
import Idealize.ShloMosaic.PureOps.Ideal.Laws
import Mathlib.Algebra.BigOperators.Fin
import Mathlib.Data.Fintype.BigOperators
import Mathlib.Logic.Equiv.Fin.Basic

noncomputable section

namespace Cert.Proof.MvMath

open Idealize.ShloMosaic Idealize.ShloMosaic.ValueIdx

section Kernel
open Cert.KernelIdeal Cert.KernelIdeal.Gen

theorem lhs_mm_0 (i : S1x1024.Idx) (q : dot_S1x1024_S1024x1024_S1x1024_1_0_0_1_n_n.contr.Idx) :
    (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
theorem lhs_mm_1 (i : S1x1024.Idx) (q : dot_S1x1024_S1024x1024_S1x1024_1_0_0_1_n_n.contr.Idx) :
    (dot_S1x1024_S1024x1024_S1x1024_1_0_0_1_n_n.lhsIdx i q 1).val = (q ⟨0, by decide⟩).val :=
  dot_S1x1024_S1024x1024_S1x1024_1_0_0_1_n_n.lhsIdx_val_of_single rfl i q
theorem rhs_mm_0 (i : S1x1024.Idx) (q : dot_S1x1024_S1024x1024_S1x1024_1_0_0_1_n_n.contr.Idx) :
    (dot_S1x1024_S1024x1024_S1x1024_1_0_0_1_n_n.rhsIdx i q 0).val = (q ⟨0, by decide⟩).val :=
  dot_S1x1024_S1024x1024_S1x1024_1_0_0_1_n_n.rhsIdx_val_of_single rfl i q
theorem rhs_mm_1 (i : S1x1024.Idx) (q : dot_S1x1024_S1024x1024_S1x1024_1_0_0_1_n_n.contr.Idx) :
    (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl

theorem mm_apply (x : FVec Ideal S1x1024 .bf16) (w : FVec Ideal S1024x1024 .bf16) (p : Fin 1) (q : Fin 1024) :
    matmul dot_S1x1024_S1024x1024_S1x1024_1_0_0_1_n_n none x w (constant (F := Ideal) S1x1024 .f32 0x00000000#32) (ix2 p q)
      = ∑ k : Fin 1024, x (ix2 p k) * w (ix2 k q) := by
  simp only [matmul]
  rw [Ideal.matmul_constant_zero_apply, ← Equiv.sum_comp (ValueIdx.contrEquiv1 dot_S1x1024_S1024x1024_S1x1024_1_0_0_1_n_n 1024 rfl rfl).symm]
  refine Finset.sum_congr rfl fun k _ => ?_
  have hk := ValueIdx.contrEquiv1_symm_val dot_S1x1024_S1024x1024_S1x1024_1_0_0_1_n_n 1024 rfl rfl k
  have el : dot_S1x1024_S1024x1024_S1x1024_1_0_0_1_n_n.lhsIdx (ix2 p q) ((ValueIdx.contrEquiv1 dot_S1x1024_S1024x1024_S1x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S1x1024_S1024x1024_S1x1024_1_0_0_1_n_n.rhsIdx (ix2 p q) ((ValueIdx.contrEquiv1 dot_S1x1024_S1024x1024_S1x1024_1_0_0_1_n_n 1024 rfl rfl).symm k) = ix2 k q := funext fun a => Fin.ext (by
    match a with
    | ⟨0, _⟩ => exact (rhs_mm_0 _ _).trans hk
    | ⟨1, _⟩ => exact rhs_mm_1 _ _)
  rw [el, er]

end Kernel

section Payloads
open Cert.KernelIdeal Cert.KernelIdeal.Gen

theorem pay2_apply (x : Vec Ideal S1x1024 .f32) (w : Vec Ideal S1024x1024 .f32) (a : Vec Ideal S1x1024 .f32) (q : Fin 1024) :
    k1_pay2 (F := Ideal) x w a (ix2 (0 : Fin 1) q) = a (ix2 (0 : Fin 1) q) + ∑ r : Fin 1024, x (ix2 (0 : Fin 1) r) * w (ix2 r q) := by
  unfold k1_pay2
  simp only [shapeCast_self]
  rw [addf_apply, mm_apply]
  rfl

theorem pay1_apply (q : Fin 1024) : k1_pay1 (F := Ideal) (ix2 (0 : Fin 1) q) = 0 := by
  unfold k1_pay1
  simp only [shapeCast_self]
  exact Ideal.ofBits_zero_f32

theorem pay3_apply (a : Vec Ideal S1x1024 .f32) (j : S1x1024.Idx) : k1_pay3 (F := Ideal) a j = max (a j) 0 := by
  unfold k1_pay3
  show max (a j) (Ideal.ofBits .f32 0x00000000#32) = _
  rw [Ideal.ofBits_zero_f32]

end Payloads

section Sums

theorem sum_split4 {M : Type*} [AddCommMonoid M] (g : Fin 4096 → M) :
    ∑ r : Fin 4096, g r = ∑ a : Fin 4, ∑ b : Fin 1024, g ⟨a.val * 1024 + b.val, by have := a.isLt; have := b.isLt; omega⟩ := by
  rw [← Equiv.sum_comp (finProdFinEquiv (m := 4) (n := 1024)) g, Fintype.sum_prod_type]
  refine Finset.sum_congr rfl fun a _ => Finset.sum_congr rfl fun b _ => congrArg g (Fin.ext ?_)
  show b.val + 1024 * a.val = a.val * 1024 + b.val
  omega

end Sums

section Tiles
open Cert.KernelIdeal Cert.KernelIdeal.Gen Cert.KernelIdeal.Hand

def tileSum (v : Vec Ideal S1x4096 .f32) (W : Vec Ideal S4096x4096 .f32) (n : Fin 4) (q : Fin 1024) (kk : Fin 4) : EReal :=
  ∑ r : Fin 1024, v (ix2 (0 : Fin 1) (⟨kk.val * 1024 + r.val, by have := kk.isLt; have := r.isLt; omega⟩ : Fin 4096))
    * W (ix2 (⟨kk.val * 1024 + r.val, by have := kk.isLt; have := r.isLt; omega⟩ : Fin 4096)
      (⟨n.val * 1024 + q.val, by have := n.isLt; have := q.isLt; omega⟩ : Fin 4096))

theorem step_apply (v : Vec Ideal S1x4096 .f32) (W : Vec Ideal S4096x4096 .f32) (n kk : Fin 4) (a : Vec Ideal S1x1024 .f32) (q : Fin 1024) :
    k1_pay2 (F := Ideal) (xblk v kk) (wblk W kk n) a (ix2 (0 : Fin 1) q) = a (ix2 (0 : Fin 1) q) + tileSum v W n q kk := by
  rw [pay2_apply]
  rfl

theorem accTile_zero_apply (v : Vec Ideal S1x4096 .f32) (W : Vec Ideal S4096x4096 .f32) (n : Fin 4) (q : Fin 1024) :
    accTile v W n 0 (ix2 (0 : Fin 1) q) = 0 + tileSum v W n q 0 := by
  rw [accTile, step_apply, pay1_apply]

theorem accTile_succ_apply (v : Vec Ideal S1x4096 .f32) (W : Vec Ideal S4096x4096 .f32) (n : Fin 4) (q : Fin 1024) (kk : ℕ) (k' : Fin 4)
    (h : (kk + 1) % 4 = k'.val) :
    accTile v W n (kk + 1) (ix2 (0 : Fin 1) q) = accTile v W n kk (ix2 (0 : Fin 1) q) + tileSum v W n q k' := by
  have hk : (⟨(kk + 1) % 4, Nat.mod_lt _ (by decide)⟩ : Fin 4) = k' := Fin.ext h
  rw [accTile, hk, step_apply]

theorem accTile_three_apply (v : Vec Ideal S1x4096 .f32) (W : Vec Ideal S4096x4096 .f32) (n : Fin 4) (q : Fin 1024) :
    accTile v W n 3 (ix2 (0 : Fin 1) q) = 0 + tileSum v W n q 0 + tileSum v W n q 1 + tileSum v W n q 2 + tileSum v W n q 3 := by
  rw [accTile_succ_apply v W n q 2 3 rfl, accTile_succ_apply v W n q 1 2 rfl, accTile_succ_apply v W n q 0 1 rfl, accTile_zero_apply]

theorem accTile_three_eq_sum (v : Vec Ideal S1x4096 .f32) (W : Vec Ideal S4096x4096 .f32) (n : Fin 4) (q : Fin 1024) :
    accTile v W n 3 (ix2 (0 : Fin 1) q)
      = ∑ r : Fin 4096, v (ix2 (0 : Fin 1) r) * W (ix2 r (⟨n.val * 1024 + q.val, by have := n.isLt; have := q.isLt; omega⟩ : Fin 4096)) := by
  rw [accTile_three_apply, zero_add,
    sum_split4 (fun r : Fin 4096 => v (ix2 (0 : Fin 1) r) * W (ix2 r (⟨n.val * 1024 + q.val, by have := n.isLt; have := q.isLt; omega⟩ : Fin 4096))),
    Fin.sum_univ_four]
  rfl

end Tiles

section Reference
open Cert.ReferenceIdeal Cert.ReferenceIdeal.Gen

theorem lhs_dg_0 (i : S1x4096.Idx) (q : dot_S1x4096_S4096x4096_S1x4096_1_0_0_1_n_n.contr.Idx) :
    (dot_S1x4096_S4096x4096_S1x4096_1_0_0_1_n_n.lhsIdx i q 0).val = (i 0).val := by
  unfold DotDims.lhsIdx
  rw [dif_neg (show ¬(0 : Fin S1x4096.rank) ∈ dot_S1x4096_S4096x4096_S1x4096_1_0_0_1_n_n.lhsBatch by decide), dif_pos (show (0 : Fin S1x4096.rank) ∈ dot_S1x4096_S4096x4096_S1x4096_1_0_0_1_n_n.lhsNonContracting by decide)]
  rfl
theorem lhs_dg_1 (i : S1x4096.Idx) (q : dot_S1x4096_S4096x4096_S1x4096_1_0_0_1_n_n.contr.Idx) :
    (dot_S1x4096_S4096x4096_S1x4096_1_0_0_1_n_n.lhsIdx i q 1).val = (q ⟨0, by decide⟩).val :=
  dot_S1x4096_S4096x4096_S1x4096_1_0_0_1_n_n.lhsIdx_val_of_single rfl i q
theorem rhs_dg_0 (i : S1x4096.Idx) (q : dot_S1x4096_S4096x4096_S1x4096_1_0_0_1_n_n.contr.Idx) :
    (dot_S1x4096_S4096x4096_S1x4096_1_0_0_1_n_n.rhsIdx i q 0).val = (q ⟨0, by decide⟩).val :=
  dot_S1x4096_S4096x4096_S1x4096_1_0_0_1_n_n.rhsIdx_val_of_single rfl i q
theorem rhs_dg_1 (i : S1x4096.Idx) (q : dot_S1x4096_S4096x4096_S1x4096_1_0_0_1_n_n.contr.Idx) :
    (dot_S1x4096_S4096x4096_S1x4096_1_0_0_1_n_n.rhsIdx i q 1).val = (i 1).val := by
  unfold DotDims.rhsIdx
  rw [dif_neg (show ¬(1 : Fin S4096x4096.rank) ∈ dot_S1x4096_S4096x4096_S1x4096_1_0_0_1_n_n.rhsBatch by decide), dif_pos (show (1 : Fin S4096x4096.rank) ∈ dot_S1x4096_S4096x4096_S1x4096_1_0_0_1_n_n.rhsNonContracting by decide)]
  rfl

theorem dg_apply (v : Vec Ideal S1x4096 .f32) (W : Vec Ideal S4096x4096 .f32) (p : Fin 1) (j : Fin 4096) :
    Host.dotGeneral (F := Ideal) (φ₁ := .f32) (φ₂ := .f32) dot_S1x4096_S4096x4096_S1x4096_1_0_0_1_n_n none v W (ix2 p j)
      = ∑ k : Fin 4096, v (ix2 p k) * W (ix2 k j) := by
  simp only [Host.dotGeneral]
  rw [Ideal.dotGeneral_apply, ← Equiv.sum_comp (ValueIdx.contrEquiv1 dot_S1x4096_S4096x4096_S1x4096_1_0_0_1_n_n 4096 rfl rfl).symm]
  refine Finset.sum_congr rfl fun k _ => ?_
  have hk := ValueIdx.contrEquiv1_symm_val dot_S1x4096_S4096x4096_S1x4096_1_0_0_1_n_n 4096 rfl rfl k
  have el : dot_S1x4096_S4096x4096_S1x4096_1_0_0_1_n_n.lhsIdx (ix2 p j) ((ValueIdx.contrEquiv1 dot_S1x4096_S4096x4096_S1x4096_1_0_0_1_n_n 4096 rfl rfl).symm k) = ix2 p k := funext fun a => Fin.ext (by
    match a with
    | ⟨0, _⟩ => exact lhs_dg_0 _ _
    | ⟨1, _⟩ => exact (lhs_dg_1 _ _).trans hk)
  have er : dot_S1x4096_S4096x4096_S1x4096_1_0_0_1_n_n.rhsIdx (ix2 p j) ((ValueIdx.contrEquiv1 dot_S1x4096_S4096x4096_S1x4096_1_0_0_1_n_n 4096 rfl rfl).symm k) = ix2 k j := funext fun a => Fin.ext (by
    match a with
    | ⟨0, _⟩ => exact (rhs_dg_0 _ _).trans hk
    | ⟨1, _⟩ => exact rhs_dg_1 _ _)
  rw [el, er]

theorem refMv_apply (v : Vec Ideal S1x4096 .f32) (W : Vec Ideal S4096x4096 .f32) (p : Fin 1) (j : Fin 4096) :
    RefValue.refMv (F := Ideal) v W (ix2 p j) = max (∑ k : Fin 4096, v (ix2 p k) * W (ix2 k j)) 0 := by
  unfold RefValue.refMv
  rw [maximumf_apply, dg_apply,
    broadcastInDim_apply _ bcast_S_S1x4096 (constant (F := Ideal) S_ .f32 0x00000000#32) (ix2 p j) (fun a => a.elim0) (fun a => a.elim0),
    constant_apply, Ideal.ofBits_zero_f32]

end Reference

section Join
open Cert.KernelIdeal.Hand

theorem mvKern_eq_refMv (v : Vec Ideal Cert.KernelIdeal.S1x4096 .f32) (W : Vec Ideal Cert.KernelIdeal.S4096x4096 .f32) :
    Cert.KernelIdeal.Hand.mvKern (F := Ideal) v W = Cert.ReferenceIdeal.RefValue.refMv (F := Ideal) v W := by
  funext i
  obtain ⟨p, j, rfl⟩ : ∃ (p : Fin 1) (j : Fin 4096), i = ix2 p j := ⟨i 0, i 1, eq_ix2 i⟩
  obtain rfl : p = 0 := Subsingleton.elim _ _
  rw [refMv_apply]
  show Cert.KernelIdeal.Gen.k1_pay3 (F := Ideal) (accTile v W ⟨j.val / 1024, by have := j.isLt; omega⟩ 3)
    (ix2 (0 : Fin 1) (⟨j.val % 1024, Nat.mod_lt _ (by decide)⟩ : Fin 1024)) = _
  rw [pay3_apply, accTile_three_eq_sum]
  have hj : (⟨j.val / 1024 * 1024 + j.val % 1024, by have := j.isLt; omega⟩ : Fin 4096) = j := Fin.ext (Nat.div_add_mod' _ _)
  rw [hj]

end Join

end Cert.Proof.MvMath

end
-- ==== Proof.DistMath.lean ====
import proofs.«151769_j20177756357157_1_alg».proof.Proof.Gen.KernelIdeal.Skeleton
import proofs.«151769_j20177756357157_1_alg».proof.Proof.RefFns
import Idealize.ShloMosaic.Lib.Pipeline.Value
import Idealize.ShloMosaic.Lib.ValueIdx
import Idealize.ShloMosaic.Lib.ValueLayout
import Idealize.ShloMosaic.PureOps.Ideal.Laws

noncomputable section

namespace Cert.Proof.DistMath

open Idealize.ShloMosaic Idealize.ShloMosaic.ValueIdx Idealize.SL.Sem
open Cert.KernelIdeal Cert.KernelIdeal.Gen

section Layout
variable {α : Type}

theorem cast_row_apply (x : S64x256.Idx → α) (p : Fin 64) (u : Fin 1) (f : Fin 256) :
    shapeCast S64x1x256 x shapeCasts_S64x256_S64x1x256 (ix3 p u f) = x (ix2 p f) :=
  shapeCast_apply x _ _ _ (by
    have hu : u.val = 0 := by omega
    rw [Shape.rowMajor_val_two, Shape.rowMajor_val_three]
    show p.val * 256 + f.val = (p.val * 1 + u.val) * 256 + f.val
    rw [hu, Nat.mul_one, Nat.add_zero])

theorem bcast_row_apply (v : S64x1x256.Idx → α) (p q : Fin 64) (f : Fin 256) :
    broadcastTo S64x64x256 v broadcasts_S64x1x256_S64x64x256 (ix3 p q f) = v (ix3 p (0 : Fin 1) f) := by
  refine broadcastTo_apply v _ (ix3 p q f) (ix3 p (0 : Fin 1) f) fun ax => ?_
  match ax with
  | ⟨0, _⟩ => rfl
  | ⟨1, _⟩ => rfl
  | ⟨2, _⟩ => rfl

theorem bcast_col_apply (v : S1x64x256.Idx → α) (p q : Fin 64) (f : Fin 256) :
    broadcastTo S64x64x256 v broadcasts_S1x64x256_S64x64x256 (ix3 p q f) = v (ix3 (0 : Fin 1) q f) := by
  refine broadcastTo_apply v _ (ix3 p q f) (ix3 (0 : Fin 1) q f) fun ax => ?_
  match ax with
  | ⟨0, _⟩ => rfl
  | ⟨1, _⟩ => rfl
  | ⟨2, _⟩ => rfl

end Layout

def kDiff (nv : Vec Ideal S64x256 .f32) : FVec Ideal S64x64x256 .f32 :=
  subf
    (broadcastTo S64x64x256
      (shapeCast S64x1x256 (shapeCast S64x256 nv shapeCasts_S64x256_S64x256) shapeCasts_S64x256_S64x1x256)
      broadcasts_S64x1x256_S64x64x256)
    (broadcastTo S64x64x256
      (shapeCast S1x64x256 (shapeCast S64x256 nv shapeCasts_S64x256_S64x256) shapeCasts_S64x256_S1x64x256)
      broadcasts_S1x64x256_S64x64x256)

theorem kDiff_apply (nv : Vec Ideal S64x256 .f32) (p q : Fin 64) (f : Fin 256) :
    kDiff nv (ix3 p q f) = nv (ix2 p f) - nv (ix2 q f) := by
  unfold kDiff
  rw [shapeCast_self, subf_apply, bcast_row_apply, bcast_col_apply, cast_row_apply, shapeCast_ab_1ab_apply]

theorem refDiff_apply (nv : Vec Ideal S64x256 .f32) (p q : Fin 64) (f : Fin 256) :
    Cert.ReferenceIdeal.RefValue.refDiff (F := Ideal) nv (ix3 p q f) = nv (ix2 p f) - nv (ix2 q f) := by
  unfold Cert.ReferenceIdeal.RefValue.refDiff
  rw [subf_apply]
  congr 1
  · refine (broadcastInDim_apply _ Cert.ReferenceIdeal.Gen.bcast_S64x1x256_S64x64x256_0_1_2 _ (ix3 p q f)
      (ix3 p (0 : Fin 1) f) fun a => ?_).trans ?_
    · match a with
      | ⟨0, _⟩ => rfl
      | ⟨1, _⟩ => rfl
      | ⟨2, _⟩ => rfl
    · refine broadcastInDim_apply _ Cert.ReferenceIdeal.Gen.bcast_S64x256_S64x1x256_0_2 nv (ix3 p (0 : Fin 1) f)
        (ix2 p f) fun a => ?_
      match a with
      | ⟨0, _⟩ => rfl
      | ⟨1, _⟩ => rfl
  · refine (broadcastInDim_apply _ Cert.ReferenceIdeal.Gen.bcast_S1x64x256_S64x64x256_0_1_2 _ (ix3 p q f)
      (ix3 (0 : Fin 1) q f) fun a => ?_).trans ?_
    · match a with
      | ⟨0, _⟩ => rfl
      | ⟨1, _⟩ => rfl
      | ⟨2, _⟩ => rfl
    · refine broadcastInDim_apply _ Cert.ReferenceIdeal.Gen.bcast_S64x256_S1x64x256_1_2 nv (ix3 (0 : Fin 1) q f)
        (ix2 q f) fun a => ?_
      match a with
      | ⟨0, _⟩ => rfl
      | ⟨1, _⟩ => rfl

theorem kDiff_eq_refDiff (nv : Vec Ideal S64x256 .f32) :
    kDiff nv = Cert.ReferenceIdeal.RefValue.refDiff (F := Ideal) nv := by
  funext i
  obtain ⟨p, q, f, rfl⟩ : ∃ (p q : Fin 64) (f : Fin 256), i = ix3 p q f := ⟨i 0, i 1, i 2, eq_ix3 i⟩
  rw [kDiff_apply, refDiff_apply]

theorem k0_pay1_eq (nv : Vec Ideal S64x256 .f32) :
    k0_pay1 (F := Ideal) nv
      = Host.sqrt (Host.reduceAdd (F := Ideal)
          (mulf (Cert.ReferenceIdeal.RefValue.refDiff (F := Ideal) nv) (Cert.ReferenceIdeal.RefValue.refDiff (F := Ideal) nv))
          (constant (F := Ideal) Cert.ReferenceIdeal.S_ .f32 0x00000000#32)
          Cert.ReferenceIdeal.Gen.reducesTo_S64x64x256_S64x64_d2 Cert.ReferenceIdeal.Gen.h_S_) := by
  have h1 : k0_pay1 (F := Ideal) nv
      = sqrt (multiReduction (F := Ideal) .add [2] S64x64 (mulf (kDiff nv) (kDiff nv)) 0x00000000#32
          reduces_S64x64x256_S64x64 (.inl rfl) rfl) := rfl
  rw [h1, kDiff_eq_refDiff]
  generalize mulf (Cert.ReferenceIdeal.RefValue.refDiff (F := Ideal) nv) (Cert.ReferenceIdeal.RefValue.refDiff (F := Ideal) nv) = y
  funext i
  show Ideal.sqrt (multiReduction (F := Ideal) .add [2] S64x64 y 0x00000000#32 reduces_S64x64x256_S64x64 (.inl rfl) rfl i)
    = Ideal.sqrt (Ideal.hostReduceAdd Cert.ReferenceIdeal.Gen.reducesTo_S64x64x256_S64x64_d2 y
        (Ideal.ofBits .f32 0x00000000#32) i)
  congr 1
  refine (Ideal.multiReduction_add_single y _ reduces_S64x64x256_S64x64 _ _ i).trans ?_
  rw [Ideal.hostReduceAdd_single Cert.ReferenceIdeal.Gen.reducesTo_S64x64x256_S64x64_d2 reduces_S64x64x256_S64x64,
    Ideal.ofBits_zero_f32, zero_add]

theorem k0_pay2_eq_refDist (nv : Vec Ideal Cert.KernelIdeal.S64x256 .f32) (a : Vec Ideal Cert.KernelIdeal.S64x64 .f32) :
    Cert.KernelIdeal.Gen.k0_pay2 (F := Ideal) nv a = Cert.ReferenceIdeal.RefValue.refDist (F := Ideal) nv a := by
  have h2 : k0_pay2 (F := Ideal) nv a
      = select (cmpf .oeq (shapeCast S64x64 a shapeCasts_S64x64_S64x64) (broadcast S64x64 (Scalar.ofBits (F := Ideal) .f32 0x3F800000#32)))
          (k0_pay1 (F := Ideal) nv) (broadcast S64x64 (Scalar.ofBits (F := Ideal) .f32 0x00000000#32)) := rfl
  rw [h2, k0_pay1_eq, shapeCast_self]
  unfold Cert.ReferenceIdeal.RefValue.refDist
  generalize Host.sqrt (Host.reduceAdd (F := Ideal)
          (mulf (Cert.ReferenceIdeal.RefValue.refDiff (F := Ideal) nv) (Cert.ReferenceIdeal.RefValue.refDiff (F := Ideal) nv))
          (constant (F := Ideal) Cert.ReferenceIdeal.S_ .f32 0x00000000#32)
          Cert.ReferenceIdeal.Gen.reducesTo_S64x64x256_S64x64_d2 Cert.ReferenceIdeal.Gen.h_S_) = d
  rfl

theorem k0_pay3_eq_refDist (nv : Vec Ideal Cert.KernelIdeal.S64x256 .f32) (a : Vec Ideal Cert.KernelIdeal.S64x64 .f32) :
    Cert.KernelIdeal.Gen.k0_pay3 (F := Ideal) nv a = Cert.ReferenceIdeal.RefValue.refDist (F := Ideal) nv a :=
  k0_pay2_eq_refDist nv a

theorem k0_pay4_eq_refDist (nv : Vec Ideal Cert.KernelIdeal.S64x256 .f32) (a : Vec Ideal Cert.KernelIdeal.S64x64 .f32) :
    Cert.KernelIdeal.Gen.k0_pay4 (F := Ideal) nv a = Cert.ReferenceIdeal.RefValue.refDist (F := Ideal) nv a :=
  k0_pay2_eq_refDist nv a

end Cert.Proof.DistMath

end
-- ==== Proof.Bridge.lean ====
import proofs.«151769_j20177756357157_1_alg».proof.Proof.KI.Value
import proofs.«151769_j20177756357157_1_alg».proof.Proof.RefFns
import proofs.«151769_j20177756357157_1_alg».proof.Proof.MvMath
import proofs.«151769_j20177756357157_1_alg».proof.Proof.DistMath

noncomputable section

namespace Cert.Proof.Bridge

open Idealize.ShloMosaic

theorem kOut_eq_refOut (a : Vec Ideal Cert.KernelIdeal.S1x64x64 .f32) (nv : Vec Ideal Cert.KernelIdeal.S1x64x256 .f32)
    (W1 W2 : Vec Ideal Cert.KernelIdeal.S4096x4096 .f32) :
    Cert.KernelIdeal.Hand.kOut (F := Ideal) a nv W1 W2 = Cert.ReferenceIdeal.RefValue.refOut (F := Ideal) a nv W1 W2 := by
  unfold Cert.KernelIdeal.Hand.kOut Cert.ReferenceIdeal.RefValue.refOut
  rw [Cert.Proof.MvMath.mvKern_eq_refMv, Cert.Proof.MvMath.mvKern_eq_refMv, Cert.Proof.DistMath.k0_pay2_eq_refDist]

end Cert.Proof.Bridge

end
-- ==== Proof.lean ====
/-
  For each of three adjacency masks the kernel program takes the masked pairwise distances of 64 node rows, flattens them
  to a row of 4096 entries and applies two 4096×4096 matrix-vector products, each clamped below at zero; every product is
  cut into 1024×1024 tiles and summed over the four row tiles. The reference computes the same with whole products. Over
  the extended reals a sum taken tile by tile is the whole sum, so the results agree entry by entry.
-/
import proofs.«151769_j20177756357157_1_alg».proof.Defs
import proofs.«151769_j20177756357157_1_alg».proof.Proof.Gen.Kernel
import proofs.«151769_j20177756357157_1_alg».proof.Proof.Gen.KernelIdeal
import proofs.«151769_j20177756357157_1_alg».proof.Proof.Gen.ReferenceIdeal
import proofs.«151769_j20177756357157_1_alg».proof.Proof.Gen.Pre_finite_inputs
import proofs.«151769_j20177756357157_1_alg».proof.Proof.K.Run
import proofs.«151769_j20177756357157_1_alg».proof.Proof.K.Kept
import proofs.«151769_j20177756357157_1_alg».proof.Proof.KI.Run
import proofs.«151769_j20177756357157_1_alg».proof.Proof.KI.Kept
import proofs.«151769_j20177756357157_1_alg».proof.Proof.KI.Value
import proofs.«151769_j20177756357157_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run Cert.Kernel.defs _ _).mono (fun r h c =>
    ⟨(h c _ (Cert.Kernel.Hand.mem_uc Cert.Kernel.main_arg0 (by decide))).trans (Cert.Kernel.Hand.W12_arg m ρ c _ (by decide)),
      (h c _ (Cert.Kernel.Hand.mem_uc Cert.Kernel.main_arg1 (by decide))).trans (Cert.Kernel.Hand.W12_arg m ρ c _ (by decide)),
      (h c _ (Cert.Kernel.Hand.mem_uc Cert.Kernel.main_arg2 (by decide))).trans (Cert.Kernel.Hand.W12_arg m ρ c _ (by decide)),
      (h c _ (Cert.Kernel.Hand.mem_uc Cert.Kernel.main_arg3 (by decide))).trans (Cert.Kernel.Hand.W12_arg m ρ c _ (by decide)),
      (h c _ (Cert.Kernel.Hand.mem_uc Cert.Kernel.main_arg4 (by decide))).trans (Cert.Kernel.Hand.W12_arg m ρ c _ (by decide)),
      (h c _ (Cert.Kernel.Hand.mem_uc Cert.Kernel.main_arg5 (by decide))).trans (Cert.Kernel.Hand.W12_arg m ρ c _ (by decide)),
      (h c _ (Cert.Kernel.Hand.mem_uc Cert.Kernel.main_arg6 (by decide))).trans (Cert.Kernel.Hand.W12_arg m ρ c _ (by decide)),
      (h c _ (Cert.Kernel.Hand.mem_uc Cert.Kernel.main_arg7 (by decide))).trans (Cert.Kernel.Hand.W12_arg m ρ c _ (by decide)),
      (h c _ (Cert.Kernel.Hand.mem_uc Cert.Kernel.main_arg8 (by decide))).trans (Cert.Kernel.Hand.W12_arg m ρ c _ (by decide)),
      (h c _ (Cert.Kernel.Hand.mem_uc Cert.Kernel.main_arg9 (by decide))).trans (Cert.Kernel.Hand.W12_arg m ρ c _ (by decide))⟩)
    (Cert.Kernel.Hand.run_all (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun r h c =>
    ⟨(h c _ (Cert.KernelIdeal.Hand.mem_uc Cert.KernelIdeal.main_arg0 (by decide))).trans (Cert.KernelIdeal.Hand.W12_arg m ρ c _ (by decide)),
      (h c _ (Cert.KernelIdeal.Hand.mem_uc Cert.KernelIdeal.main_arg1 (by decide))).trans (Cert.KernelIdeal.Hand.W12_arg m ρ c _ (by decide)),
      (h c _ (Cert.KernelIdeal.Hand.mem_uc Cert.KernelIdeal.main_arg2 (by decide))).trans (Cert.KernelIdeal.Hand.W12_arg m ρ c _ (by decide)),
      (h c _ (Cert.KernelIdeal.Hand.mem_uc Cert.KernelIdeal.main_arg3 (by decide))).trans (Cert.KernelIdeal.Hand.W12_arg m ρ c _ (by decide)),
      (h c _ (Cert.KernelIdeal.Hand.mem_uc Cert.KernelIdeal.main_arg4 (by decide))).trans (Cert.KernelIdeal.Hand.W12_arg m ρ c _ (by decide)),
      (h c _ (Cert.KernelIdeal.Hand.mem_uc Cert.KernelIdeal.main_arg5 (by decide))).trans (Cert.KernelIdeal.Hand.W12_arg m ρ c _ (by decide)),
      (h c _ (Cert.KernelIdeal.Hand.mem_uc Cert.KernelIdeal.main_arg6 (by decide))).trans (Cert.KernelIdeal.Hand.W12_arg m ρ c _ (by decide)),
      (h c _ (Cert.KernelIdeal.Hand.mem_uc Cert.KernelIdeal.main_arg7 (by decide))).trans (Cert.KernelIdeal.Hand.W12_arg m ρ c _ (by decide)),
      (h c _ (Cert.KernelIdeal.Hand.mem_uc Cert.KernelIdeal.main_arg8 (by decide))).trans (Cert.KernelIdeal.Hand.W12_arg m ρ c _ (by decide)),
      (h c _ (Cert.KernelIdeal.Hand.mem_uc Cert.KernelIdeal.main_arg9 (by decide))).trans (Cert.KernelIdeal.Hand.W12_arg m ρ c _ (by decide))⟩)
    (Cert.KernelIdeal.Hand.run_all (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2.2) (Cert.ReferenceIdeal.RefValue.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.kOut (F := Ideal) (m ((c.tc : Thread _ _).loc Cert.KernelIdeal.main_arg0)) (m ((c.tc : Thread _ _).loc Cert.KernelIdeal.main_arg3)) (m ((c.tc : Thread _ _).loc Cert.KernelIdeal.main_arg4)) (m ((c.tc : Thread _ _).loc Cert.KernelIdeal.main_arg5)),
    fun c => Cert.KernelIdeal.Hand.kOut (F := Ideal) (m ((c.tc : Thread _ _).loc Cert.KernelIdeal.main_arg1)) (m ((c.tc : Thread _ _).loc Cert.KernelIdeal.main_arg3)) (m ((c.tc : Thread _ _).loc Cert.KernelIdeal.main_arg6)) (m ((c.tc : Thread _ _).loc Cert.KernelIdeal.main_arg7)),
    fun c => Cert.KernelIdeal.Hand.kOut (F := Ideal) (m ((c.tc : Thread _ _).loc Cert.KernelIdeal.main_arg2)) (m ((c.tc : Thread _ _).loc Cert.KernelIdeal.main_arg3)) (m ((c.tc : Thread _ _).loc Cert.KernelIdeal.main_arg8)) (m ((c.tc : Thread _ _).loc Cert.KernelIdeal.main_arg9)), ?_, ?_⟩
  · exact (θ_run Cert.KernelIdeal.defs _ _).mono (fun r h c =>
      ⟨(h c _ (Cert.KernelIdeal.Hand.mem_uc Cert.KernelIdeal.main_v8 (by decide))).trans (Cert.KernelIdeal.Hand.W12_main_v8 m ρ c),
      (h c _ (Cert.KernelIdeal.Hand.mem_uc Cert.KernelIdeal.main_v12 (by decide))).trans (Cert.KernelIdeal.Hand.W12_main_v12 m ρ c),
      (h c _ (Cert.KernelIdeal.Hand.mem_uc Cert.KernelIdeal.main_v16 (by decide))).trans (Cert.KernelIdeal.Hand.W12_main_v16 m ρ c),
      (h c _ (Cert.KernelIdeal.Hand.mem_uc Cert.KernelIdeal.main_arg0 (by decide))).trans (Cert.KernelIdeal.Hand.W12_arg m ρ c _ (by decide)),
      (h c _ (Cert.KernelIdeal.Hand.mem_uc Cert.KernelIdeal.main_arg1 (by decide))).trans (Cert.KernelIdeal.Hand.W12_arg m ρ c _ (by decide)),
      (h c _ (Cert.KernelIdeal.Hand.mem_uc Cert.KernelIdeal.main_arg2 (by decide))).trans (Cert.KernelIdeal.Hand.W12_arg m ρ c _ (by decide)),
      (h c _ (Cert.KernelIdeal.Hand.mem_uc Cert.KernelIdeal.main_arg3 (by decide))).trans (Cert.KernelIdeal.Hand.W12_arg m ρ c _ (by decide)),
      (h c _ (Cert.KernelIdeal.Hand.mem_uc Cert.KernelIdeal.main_arg4 (by decide))).trans (Cert.KernelIdeal.Hand.W12_arg m ρ c _ (by decide)),
      (h c _ (Cert.KernelIdeal.Hand.mem_uc Cert.KernelIdeal.main_arg5 (by decide))).trans (Cert.KernelIdeal.Hand.W12_arg m ρ c _ (by decide)),
      (h c _ (Cert.KernelIdeal.Hand.mem_uc Cert.KernelIdeal.main_arg6 (by decide))).trans (Cert.KernelIdeal.Hand.W12_arg m ρ c _ (by decide)),
      (h c _ (Cert.KernelIdeal.Hand.mem_uc Cert.KernelIdeal.main_arg7 (by decide))).trans (Cert.KernelIdeal.Hand.W12_arg m ρ c _ (by decide)),
      (h c _ (Cert.KernelIdeal.Hand.mem_uc Cert.KernelIdeal.main_arg8 (by decide))).trans (Cert.KernelIdeal.Hand.W12_arg m ρ c _ (by decide)),
      (h c _ (Cert.KernelIdeal.Hand.mem_uc Cert.KernelIdeal.main_arg9 (by decide))).trans (Cert.KernelIdeal.Hand.W12_arg m ρ c _ (by decide))⟩)
      (Cert.KernelIdeal.Hand.run_all (F := Ideal) m ρ)
  · refine (θ_run Cert.ReferenceIdeal.defs _ _).mono (fun r h c => ?_) (Cert.ReferenceIdeal.RefValue.run (F := Ideal) m' ρ')
    obtain ⟨h0, h1, h2, hargs⟩ := h c
    obtain ⟨e0, e1, e2, e3, e4, e5, e6, e7, e8, e9⟩ := hagree c
    refine ⟨h0.trans ?_, h1.trans ?_, h2.trans ?_, hargs⟩
    · rw [e0, e3, e4, e5]; exact (Cert.Proof.Bridge.kOut_eq_refOut _ _ _ _).symm
    · rw [e1, e3, e6, e7]; exact (Cert.Proof.Bridge.kOut_eq_refOut _ _ _ _).symm
    · rw [e2, e3, e8, e9]; exact (Cert.Proof.Bridge.kOut_eq_refOut _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
